-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v287)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v287) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v370) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_v63 main_v67

def fn_part2 {F : FTy → Type} [FloatOps F] (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64x64 .f32) (main_arg15 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S2x64x64 .f32) (main_arg7 : FVec F S2x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64x64 .f32) (main_arg15 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S2x64x64 .f32 := Host.absf main_arg6
  let main_cst_8 : FVec F S_ .f32 := constant S_ .f32 0x7F800000#32
  let main_v25 : FVec F S2x64x64 .f32 := broadcastInDim S2x64x64 ![] bcast_S_S2x64x64 main_cst_8
  let main_v26 : IVec S2x64x64 1 := cmpf .olt main_v24 main_v25
  let main_c_9 : IVec S_ 1 := constantI S_ 1 1#1
  let main_v27 : IVec S_ 1 := (fun x v => Host.reduce IntOp.andi x v reducesTo_S2x64x64_S_d0_1_2 h_S_) main_v26 main_c_9
  let main_v28 : IVec S_ 1 := andi main_v23 main_v27
  let main_v29 : FVec F S2x64 .f32 := Host.absf main_arg7
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S2x64x64 .f32) (main_arg7 : FVec F S2x64 .f32) (main_arg8 : FVec F S64 .f32) (main_arg9 : FVec F S64 .f32) (main_arg10 : FVec F S64 .f32) (main_arg11 : FVec F S64 .f32) (main_arg12 : FVec F S64 .f32) (main_arg13 : FVec F S64 .f32) (main_arg14 : FVec F S64x64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩
abbrev S1x64x64 : Shape := ⟨3, ![1, 64, 64]⟩
abbrev S5000 : Shape := ⟨1, ![5000]⟩
abbrev S5000x1 : Shape := ⟨2, ![5000, 1]⟩

abbrev nBuf : Space → Nat
  | .hbm => 368
  | .vmem => 134
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S2x64x64, .f32⟩
  | 7 => ⟨S2x64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64x64, .f32⟩
  | 15 => ⟨S64, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x64, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x64, .f32⟩
  | 66 => ⟨S850000x1, .f32⟩
  | 67 => ⟨S850000x64, .f32⟩
  | 68 => ⟨S850000x64, .f32⟩
  | 69 => ⟨S_, .f32⟩
  | 70 => ⟨S50000x64, .f32⟩
  | 71 => ⟨S850000x1, .i32⟩
  | 72 => ⟨S50000x64, .f32⟩
  | 73 => ⟨S1x64, .f32⟩
  | 74 => ⟨S50000x64, .f32⟩
  | 75 => ⟨S50000x64, .f32⟩
  | 76 => ⟨S1x64, .f32⟩
  | 77 => ⟨S1x64, .f32⟩
  | 78 => ⟨S_, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S50000x64, .f32⟩
  | 89 => ⟨S50000x64, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x64, .f32⟩
  | 99 => ⟨S850000x1, .f32⟩
  | 100 => ⟨S850000x64, .f32⟩
  | 101 => ⟨S850000x64, .f32⟩
  | 102 => ⟨S_, .f32⟩
  | 103 => ⟨S50000x64, .f32⟩
  | 104 => ⟨S850000x1, .i32⟩
  | 105 => ⟨S50000x64, .f32⟩
  | 106 => ⟨S1x64, .f32⟩
  | 107 => ⟨S50000x64, .f32⟩
  | 108 => ⟨S50000x64, .f32⟩
  | 109 => ⟨S1x64, .f32⟩
  | 110 => ⟨S1x64, .f32⟩
  | 111 => ⟨S_, .f32⟩
  | 112 => ⟨S1x64, .f32⟩
  | 113 => ⟨S1x64, .f32⟩
  | 114 => ⟨S_, .f32⟩
  | 115 => ⟨S1x64, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S50000x64, .f32⟩
  | 122 => ⟨S1x64x64, .f32⟩
  | 123 => ⟨S64x64, .f32⟩
  | 124 => ⟨S1x64, .f32⟩
  | 125 => ⟨S64, .f32⟩
  | 126 => ⟨S50000x64, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x64, .f32⟩
  | 8 => ⟨S850000x1, .f32⟩
  | 9 => ⟨S850000x64, .f32⟩
  | 10 => ⟨S850000x64, .f32⟩
  | 11 => ⟨S_, .f32⟩
  | 12 => ⟨S50000x64, .f32⟩
  | 13 => ⟨S850000x1, .i32⟩
  | 14 => ⟨S50000x64, .f32⟩
  | 15 => ⟨S1x64, .f32⟩
  | 16 => ⟨S50000x64, .f32⟩
  | 17 => ⟨S50000x64, .f32⟩
  | 18 => ⟨S1x64, .f32⟩
  | 19 => ⟨S1x64, .f32⟩
  | 20 => ⟨S_, .f32⟩
  | 21 => ⟨S1x64, .f32⟩
  | 22 => ⟨S1x64, .f32⟩
  | 23 => ⟨S_, .f32⟩
  | 24 => ⟨S1x64, .f32⟩
  | 25 => ⟨S1x64, .f32⟩
  | 26 => ⟨S1x64, .f32⟩
  | 27 => ⟨S1x64, .f32⟩
  | 28 => ⟨S1x64, .f32⟩
  | 29 => ⟨S1x64, .f32⟩
  | 30 => ⟨S50000x64, .f32⟩
  | 31 => ⟨S1x64x64, .f32⟩
  | 32 => ⟨S64x64, .f32⟩
  | 33 => ⟨S1x64, .f32⟩
  | 34 => ⟨S64, .f32⟩
  | 35 => ⟨S50000x64, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x64, .f32⟩
  | 45 => ⟨S850000x1, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | 55 => ⟨S1x64, .f32⟩
  | 56 => ⟨S1x64, .f32⟩
  | 57 => ⟨S_, .f32⟩
  | 58 => ⟨S1x64, .f32⟩
  | 59 => ⟨S1x64, .f32⟩
  | 60 => ⟨S_, .f32⟩
  | 61 => ⟨S1x64, .f32⟩
  | 62 => ⟨S1x64, .f32⟩
  | 63 => ⟨S1x64, .f32⟩
  | 64 => ⟨S1x64, .f32⟩
  | 65 => ⟨S1x64, .f32⟩
  | 66 => ⟨S1x64, .f32⟩
  | 67 => ⟨S50000x64, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x64, .f32⟩
  | 77 => ⟨S850000x1, .f32⟩
  | 78 => ⟨S850000x64, .f32⟩
  | 79 => ⟨S850000x64, .f32⟩
  | 80 => ⟨S_, .f32⟩
  | 81 => ⟨S50000x64, .f32⟩
  | 82 => ⟨S850000x1, .i32⟩
  | 83 => ⟨S50000x64, .f32⟩
  | 84 => ⟨S50000x64, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x64, .f32⟩
  | 94 => ⟨S850000x1, .f32⟩
  | 95 => ⟨S850000x64, .f32⟩
  | 96 => ⟨S850000x64, .f32⟩
  | 97 => ⟨S_, .f32⟩
  | 98 => ⟨S50000x64, .f32⟩
  | 99 => ⟨S850000x1, .i32⟩
  | 100 => ⟨S50000x64, .f32⟩
  | 101 => ⟨S50000x64, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x64, .f32⟩
  | 111 => ⟨S850000x1, .f32⟩
  | 112 => ⟨S850000x64, .f32⟩
  | 113 => ⟨S850000x64, .f32⟩
  | 114 => ⟨S_, .f32⟩
  | 115 => ⟨S50000x64, .f32⟩
  | 116 => ⟨S850000x1, .i32⟩
  | 117 => ⟨S50000x64, .f32⟩
  | 118 => ⟨S50000x64, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x64, .f32⟩
  | _ => ⟨S50000x128, .f32⟩

abbrev hbmTy0_2 (i : Nat) : BufTy := match i % 128 with
  | 0 => ⟨S850000x1, .f32⟩
  | 1 => ⟨S850000x64, .f32⟩
  | 2 => ⟨S850000x64, .f32⟩
  | 3 => ⟨S_, .f32⟩
  | 4 => ⟨S50000x64, .f32⟩
  | 5 => ⟨S850000x1, .i32⟩
  | 6 => ⟨S50000x64, .f32⟩
  | 7 => ⟨S50000x64, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x64, .f32⟩
  | 17 => ⟨S850000x1, .f32⟩
  | 18 => ⟨S850000x64, .f32⟩
  | 19 => ⟨S850000x64, .f32⟩
  | 20 => ⟨S_, .f32⟩
  | 21 => ⟨S50000x64, .f32⟩
  | 22 => ⟨S850000x1, .i32⟩
  | 23 => ⟨S50000x64, .f32⟩
  | 24 => ⟨S50000x64, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000x64, .f32⟩
  | 34 => ⟨S850000x1, .f32⟩
  | 35 => ⟨S850000x64, .f32⟩
  | 36 => ⟨S850000x64, .f32⟩
  | 37 => ⟨S_, .f32⟩
  | 38 => ⟨S50000x64, .f32⟩
  | 39 => ⟨S850000x1, .i32⟩
  | 40 => ⟨S50000x64, .f32⟩
  | 41 => ⟨S50000x64, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x64, .f32⟩
  | 51 => ⟨S850000x1, .f32⟩
  | 52 => ⟨S850000x64, .f32⟩
  | 53 => ⟨S850000x64, .f32⟩
  | 54 => ⟨S_, .f32⟩
  | 55 => ⟨S50000x64, .f32⟩
  | 56 => ⟨S850000x1, .i32⟩
  | 57 => ⟨S50000x64, .f32⟩
  | 58 => ⟨S50000x64, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x64, .f32⟩
  | 68 => ⟨S850000x1, .f32⟩
  | 69 => ⟨S850000x64, .f32⟩
  | 70 => ⟨S850000x64, .f32⟩
  | 71 => ⟨S_, .f32⟩
  | 72 => ⟨S50000x64, .f32⟩
  | 73 => ⟨S850000x1, .i32⟩
  | 74 => ⟨S50000x64, .f32⟩
  | 75 => ⟨S50000x64, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x64, .f32⟩
  | 85 => ⟨S850000x1, .f32⟩
  | 86 => ⟨S850000x64, .f32⟩
  | 87 => ⟨S850000x64, .f32⟩
  | 88 => ⟨S_, .f32⟩
  | 89 => ⟨S50000x64, .f32⟩
  | 90 => ⟨S850000x1, .i32⟩
  | 91 => ⟨S50000x64, .f32⟩
  | 92 => ⟨S50000x64, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000x64, .f32⟩
  | 102 => ⟨S850000x1, .f32⟩
  | 103 => ⟨S850000x64, .f32⟩
  | 104 => ⟨S850000x64, .f32⟩
  | 105 => ⟨S_, .f32⟩
  | 106 => ⟨S50000x64, .f32⟩
  | 107 => ⟨S850000x1, .i32⟩
  | 108 => ⟨S50000x64, .f32⟩
  | 109 => ⟨S50000x64, .f32⟩
  | 110 => ⟨S1x64, .f32⟩
  | 111 => ⟨S50000x64, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev vmemTy0_0 (i : Nat) : BufTy := match i % 128 with
  | 0 => ⟨S5000x128, .f32⟩
  | 1 => ⟨S5000x128, .f32⟩
  | 2 => ⟨S128x64, .f32⟩
  | 3 => ⟨S5000x64, .f32⟩
  | 4 => ⟨S5000x64, .f32⟩
  | 5 => ⟨S5000x64, .f32⟩
  | 6 => ⟨S5000x64, .f32⟩
  | 7 => ⟨S1x64, .f32⟩
  | 8 => ⟨S1x64, .f32⟩
  | 9 => ⟨S5000x64, .f32⟩
  | 10 => ⟨S5000x64, .f32⟩
  | 11 => ⟨S1x64, .f32⟩
  | 12 => ⟨S1x64, .f32⟩
  | 13 => ⟨S1x64, .f32⟩
  | 14 => ⟨S1x64, .f32⟩
  | 15 => ⟨S5000x64, .f32⟩
  | 16 => ⟨S5000x64, .f32⟩
  | 17 => ⟨S5000x64, .f32⟩
  | 18 => ⟨S5000x64, .f32⟩
  | 19 => ⟨S64x64, .f32⟩
  | 20 => ⟨S5000x64, .f32⟩
  | 21 => ⟨S5000x64, .f32⟩
  | 22 => ⟨S5000x64, .f32⟩
  | 23 => ⟨S5000x64, .f32⟩
  | 24 => ⟨S1x64, .f32⟩
  | 25 => ⟨S1x64, .f32⟩
  | 26 => ⟨S5000x64, .f32⟩
  | 27 => ⟨S5000x64, .f32⟩
  | 28 => ⟨S1x64, .f32⟩
  | 29 => ⟨S1x64, .f32⟩
  | 30 => ⟨S1x64, .f32⟩
  | 31 => ⟨S1x64, .f32⟩
  | 32 => ⟨S5000x64, .f32⟩
  | 33 => ⟨S5000x64, .f32⟩
  | 34 => ⟨S5000x64, .f32⟩
  | 35 => ⟨S5000x64, .f32⟩
  | 36 => ⟨S64x64, .f32⟩
  | 37 => ⟨S5000x64, .f32⟩
  | 38 => ⟨S5000x64, .f32⟩
  | 39 => ⟨S5000x64, .f32⟩
  | 40 => ⟨S5000x64, .f32⟩
  | 41 => ⟨S1x64, .f32⟩
  | 42 => ⟨S1x64, .f32⟩
  | 43 => ⟨S5000x64, .f32⟩
  | 44 => ⟨S5000x64, .f32⟩
  | 45 => ⟨S1x64, .f32⟩
  | 46 => ⟨S1x64, .f32⟩
  | 47 => ⟨S1x64, .f32⟩
  | 48 => ⟨S1x64, .f32⟩
  | 49 => ⟨S5000x64, .f32⟩
  | 50 => ⟨S5000x64, .f32⟩
  | 51 => ⟨S5000x64, .f32⟩
  | 52 => ⟨S5000x64, .f32⟩
  | 53 => ⟨S64x64, .f32⟩
  | 54 => ⟨S5000x64, .f32⟩
  | 55 => ⟨S5000x64, .f32⟩
  | 56 => ⟨S5000x64, .f32⟩
  | 57 => ⟨S5000x64, .f32⟩
  | 58 => ⟨S1x64, .f32⟩
  | 59 => ⟨S1x64, .f32⟩
  | 60 => ⟨S5000x64, .f32⟩
  | 61 => ⟨S5000x64, .f32⟩
  | 62 => ⟨S1x64, .f32⟩
  | 63 => ⟨S1x64, .f32⟩
  | 64 => ⟨S1x64, .f32⟩
  | 65 => ⟨S1x64, .f32⟩
  | 66 => ⟨S5000x64, .f32⟩
  | 67 => ⟨S5000x64, .f32⟩
  | 68 => ⟨S5000x64, .f32⟩
  | 69 => ⟨S5000x64, .f32⟩
  | 70 => ⟨S5000x64, .f32⟩
  | 71 => ⟨S5000x64, .f32⟩
  | 72 => ⟨S5000x64, .f32⟩
  | 73 => ⟨S5000x64, .f32⟩
  | 74 => ⟨S5000x64, .f32⟩
  | 75 => ⟨S5000x64, .f32⟩
  | 76 => ⟨S5000x64, .f32⟩
  | 77 => ⟨S5000x64, .f32⟩
  | 78 => ⟨S5000x64, .f32⟩
  | 79 => ⟨S5000x64, .f32⟩
  | 80 => ⟨S5000x64, .f32⟩
  | 81 => ⟨S5000x64, .f32⟩
  | 82 => ⟨S5000x64, .f32⟩
  | 83 => ⟨S5000x64, .f32⟩
  | 84 => ⟨S5000x64, .f32⟩
  | 85 => ⟨S5000x64, .f32⟩
  | 86 => ⟨S5000x64, .f32⟩
  | 87 => ⟨S5000x64, .f32⟩
  | 88 => ⟨S5000x64, .f32⟩
  | 89 => ⟨S5000x64, .f32⟩
  | 90 => ⟨S5000x64, .f32⟩
  | 91 => ⟨S5000x64, .f32⟩
  | 92 => ⟨S5000x64, .f32⟩
  | 93 => ⟨S5000x64, .f32⟩
  | 94 => ⟨S5000x64, .f32⟩
  | 95 => ⟨S5000x64, .f32⟩
  | 96 => ⟨S5000x64, .f32⟩
  | 97 => ⟨S5000x64, .f32⟩
  | 98 => ⟨S5000x64, .f32⟩
  | 99 => ⟨S5000x64, .f32⟩
  | 100 => ⟨S5000x64, .f32⟩
  | 101 => ⟨S5000x64, .f32⟩
  | 102 => ⟨S5000x64, .f32⟩
  | 103 => ⟨S5000x64, .f32⟩
  | 104 => ⟨S5000x64, .f32⟩
  | 105 => ⟨S5000x64, .f32⟩
  | 106 => ⟨S5000x64, .f32⟩
  | 107 => ⟨S5000x64, .f32⟩
  | 108 => ⟨S5000x64, .f32⟩
  | 109 => ⟨S5000x64, .f32⟩
  | 110 => ⟨S5000x64, .f32⟩
  | 111 => ⟨S5000x64, .f32⟩
  | 112 => ⟨S5000x64, .f32⟩
  | 113 => ⟨S5000x64, .f32⟩
  | 114 => ⟨S5000x64, .f32⟩
  | 115 => ⟨S5000x64, .f32⟩
  | 116 => ⟨S5000x64, .f32⟩
  | 117 => ⟨S5000x64, .f32⟩
  | 118 => ⟨S5000x64, .f32⟩
  | 119 => ⟨S5000x64, .f32⟩
  | 120 => ⟨S5000x64, .f32⟩
  | 121 => ⟨S5000x64, .f32⟩
  | 122 => ⟨S5000x64, .f32⟩
  | 123 => ⟨S5000x64, .f32⟩
  | 124 => ⟨S5000x64, .f32⟩
  | 125 => ⟨S5000x64, .f32⟩
  | 126 => ⟨S5000x64, .f32⟩
  | 127 => ⟨S5000x64, .f32⟩
  | _ => ⟨S50000x128, .f32⟩

abbrev vmemTy0_1 (i : Nat) : BufTy := match i % 128 with
  | 0 => ⟨S5000x64, .f32⟩
  | 1 => ⟨S5000x64, .f32⟩
  | 2 => ⟨S64x64, .f32⟩
  | 3 => ⟨S1x64, .f32⟩
  | 4 => ⟨S5000x64, .f32⟩
  | 5 => ⟨S5000x64, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47_0 : Ref sig .tc := ⟨.hbm, 76, rfl⟩
abbrev main_v47_1 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_11 : Ref sig .tc := ⟨.hbm, 90, rfl⟩
abbrev main_v58 : Ref sig .tc := ⟨.hbm, 91, rfl⟩
abbrev main_v59 : Ref sig .tc := ⟨.hbm, 92, rfl⟩
abbrev main_c_12 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74_0 : Ref sig .tc := ⟨.hbm, 109, rfl⟩
abbrev main_v74_1 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_cst_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_16 : Ref sig .tc := ⟨.hbm, 127, rfl⟩
abbrev main_v89 : Ref sig .tc := ⟨.hbm, 128, rfl⟩
abbrev main_v90 : Ref sig .tc := ⟨.hbm, 129, rfl⟩
abbrev main_c_17 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_cst_18 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105_0 : Ref sig .tc := ⟨.hbm, 146, rfl⟩
abbrev main_v105_1 : Ref sig .tc := ⟨.hbm, 147, rfl⟩
abbrev main_cst_19 : Ref sig .tc := ⟨.hbm, 148, rfl⟩
abbrev main_v106 : Ref sig .tc := ⟨.hbm, 149, rfl⟩
abbrev main_v107 : Ref sig .tc := ⟨.hbm, 150, rfl⟩
abbrev main_cst_20 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_c_21 : Ref sig .tc := ⟨.hbm, 164, rfl⟩
abbrev main_v120 : Ref sig .tc := ⟨.hbm, 165, rfl⟩
abbrev main_v121 : Ref sig .tc := ⟨.hbm, 166, rfl⟩
abbrev main_c_22 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_cst_23 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136_0 : Ref sig .tc := ⟨.hbm, 183, rfl⟩
abbrev main_v136_1 : Ref sig .tc := ⟨.hbm, 184, rfl⟩
abbrev main_cst_24 : Ref sig .tc := ⟨.hbm, 185, rfl⟩
abbrev main_v137 : Ref sig .tc := ⟨.hbm, 186, rfl⟩
abbrev main_v138 : Ref sig .tc := ⟨.hbm, 187, rfl⟩
abbrev main_cst_25 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_c_26 : Ref sig .tc := ⟨.hbm, 196, rfl⟩
abbrev main_v146 : Ref sig .tc := ⟨.hbm, 197, rfl⟩
abbrev main_v147 : Ref sig .tc := ⟨.hbm, 198, rfl⟩
abbrev main_c_27 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_cst_28 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_c_29 : Ref sig .tc := ⟨.hbm, 213, rfl⟩
abbrev main_v160 : Ref sig .tc := ⟨.hbm, 214, rfl⟩
abbrev main_v161 : Ref sig .tc := ⟨.hbm, 215, rfl⟩
abbrev main_c_30 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_cst_31 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_c_32 : Ref sig .tc := ⟨.hbm, 230, rfl⟩
abbrev main_v174 : Ref sig .tc := ⟨.hbm, 231, rfl⟩
abbrev main_v175 : Ref sig .tc := ⟨.hbm, 232, rfl⟩
abbrev main_c_33 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_cst_34 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_c_35 : Ref sig .tc := ⟨.hbm, 247, rfl⟩
abbrev main_v188 : Ref sig .tc := ⟨.hbm, 248, rfl⟩
abbrev main_v189 : Ref sig .tc := ⟨.hbm, 249, rfl⟩
abbrev main_c_36 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_cst_37 : Ref sig .tc := ⟨.hbm, 259, rfl⟩
abbrev main_v198 : Ref sig .tc := ⟨.hbm, 260, rfl⟩
abbrev main_v199 : Ref sig .tc := ⟨.hbm, 261, rfl⟩
abbrev main_v200 : Ref sig .tc := ⟨.hbm, 262, rfl⟩
abbrev main_v201 : Ref sig .tc := ⟨.hbm, 263, rfl⟩
abbrev main_c_38 : Ref sig .tc := ⟨.hbm, 264, rfl⟩
abbrev main_v202 : Ref sig .tc := ⟨.hbm, 265, rfl⟩
abbrev main_v203 : Ref sig .tc := ⟨.hbm, 266, rfl⟩
abbrev main_c_39 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_v211 : Ref sig .tc := ⟨.hbm, 275, rfl⟩
abbrev main_cst_40 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_c_41 : Ref sig .tc := ⟨.hbm, 281, rfl⟩
abbrev main_v216 : Ref sig .tc := ⟨.hbm, 282, rfl⟩
abbrev main_v217 : Ref sig .tc := ⟨.hbm, 283, rfl⟩
abbrev main_c_42 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_cst_43 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_c_44 : Ref sig .tc := ⟨.hbm, 298, rfl⟩
abbrev main_v230 : Ref sig .tc := ⟨.hbm, 299, rfl⟩
abbrev main_v231 : Ref sig .tc := ⟨.hbm, 300, rfl⟩
abbrev main_c_45 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_v238 : Ref sig .tc := ⟨.hbm, 308, rfl⟩
abbrev main_v239 : Ref sig .tc := ⟨.hbm, 309, rfl⟩
abbrev main_cst_46 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_c_47 : Ref sig .tc := ⟨.hbm, 315, rfl⟩
abbrev main_v244 : Ref sig .tc := ⟨.hbm, 316, rfl⟩
abbrev main_v245 : Ref sig .tc := ⟨.hbm, 317, rfl⟩
abbrev main_c_48 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_v252 : Ref sig .tc := ⟨.hbm, 325, rfl⟩
abbrev main_v253 : Ref sig .tc := ⟨.hbm, 326, rfl⟩
abbrev main_cst_49 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_c_50 : Ref sig .tc := ⟨.hbm, 332, rfl⟩
abbrev main_v258 : Ref sig .tc := ⟨.hbm, 333, rfl⟩
abbrev main_v259 : Ref sig .tc := ⟨.hbm, 334, rfl⟩
abbrev main_c_51 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_v263 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_cst_52 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_v271 : Ref sig .tc := ⟨.hbm, 348, rfl⟩
abbrev main_c_53 : Ref sig .tc := ⟨.hbm, 349, rfl⟩
abbrev main_v272 : Ref sig .tc := ⟨.hbm, 350, rfl⟩
abbrev main_v273 : Ref sig .tc := ⟨.hbm, 351, rfl⟩
abbrev main_c_54 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_cst_55 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc9_stg0_0 : Ref sig .tc := ⟨.vmem, 51, rfl⟩
abbrev cc9_stg0_1 : Ref sig .tc := ⟨.vmem, 52, rfl⟩
abbrev cc9_stg1_0 : Ref sig .tc := ⟨.vmem, 53, rfl⟩
abbrev cc9_stg2_0 : Ref sig .tc := ⟨.vmem, 54, rfl⟩
abbrev cc9_stg2_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc11_stg0_0 : Ref sig .tc := ⟨.vmem, 60, rfl⟩
abbrev cc11_stg0_1 : Ref sig .tc := ⟨.vmem, 61, rfl⟩
abbrev cc11_stg1_0 : Ref sig .tc := ⟨.vmem, 62, rfl⟩
abbrev cc11_stg2_0 : Ref sig .tc := ⟨.vmem, 63, rfl⟩
abbrev cc11_stg3_0 : Ref sig .tc := ⟨.vmem, 64, rfl⟩
abbrev cc11_stg4_0 : Ref sig .tc := ⟨.vmem, 65, rfl⟩
abbrev cc11_stg5_0 : Ref sig .tc := ⟨.vmem, 66, rfl⟩
abbrev cc11_stg5_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg1_1 : Ref sig .tc := ⟨.vmem, 71, rfl⟩
abbrev cc12_stg2_0 : Ref sig .tc := ⟨.vmem, 72, rfl⟩
abbrev cc12_stg2_1 : Ref sig .tc := ⟨.vmem, 73, rfl⟩
abbrev cc13_stg0_0 : Ref sig .tc := ⟨.vmem, 74, rfl⟩
abbrev cc13_stg0_1 : Ref sig .tc := ⟨.vmem, 75, rfl⟩
abbrev cc13_stg1_0 : Ref sig .tc := ⟨.vmem, 76, rfl⟩
abbrev cc13_stg1_1 : Ref sig .tc := ⟨.vmem, 77, rfl⟩
abbrev cc13_stg2_0 : Ref sig .tc := ⟨.vmem, 78, rfl⟩
abbrev cc13_stg2_1 : Ref sig .tc := ⟨.vmem, 79, rfl⟩
abbrev cc14_stg0_0 : Ref sig .tc := ⟨.vmem, 80, rfl⟩
abbrev cc14_stg0_1 : Ref sig .tc := ⟨.vmem, 81, rfl⟩
abbrev cc14_stg1_0 : Ref sig .tc := ⟨.vmem, 82, rfl⟩
abbrev cc14_stg1_1 : Ref sig .tc := ⟨.vmem, 83, rfl⟩
abbrev cc14_stg2_0 : Ref sig .tc := ⟨.vmem, 84, rfl⟩
abbrev cc14_stg2_1 : Ref sig .tc := ⟨.vmem, 85, rfl⟩
abbrev cc15_stg0_0 : Ref sig .tc := ⟨.vmem, 86, rfl⟩
abbrev cc15_stg0_1 : Ref sig .tc := ⟨.vmem, 87, rfl⟩
abbrev cc15_stg1_0 : Ref sig .tc := ⟨.vmem, 88, rfl⟩
abbrev cc15_stg1_1 : Ref sig .tc := ⟨.vmem, 89, rfl⟩
abbrev cc15_stg2_0 : Ref sig .tc := ⟨.vmem, 90, rfl⟩
abbrev cc15_stg2_1 : Ref sig .tc := ⟨.vmem, 91, rfl⟩
abbrev cc16_stg0_0 : Ref sig .tc := ⟨.vmem, 92, rfl⟩
abbrev cc16_stg0_1 : Ref sig .tc := ⟨.vmem, 93, rfl⟩
abbrev cc16_stg1_0 : Ref sig .tc := ⟨.vmem, 94, rfl⟩
abbrev cc16_stg1_1 : Ref sig .tc := ⟨.vmem, 95, rfl⟩
abbrev cc16_stg2_0 : Ref sig .tc := ⟨.vmem, 96, rfl⟩
abbrev cc16_stg2_1 : Ref sig .tc := ⟨.vmem, 97, rfl⟩
abbrev cc17_stg0_0 : Ref sig .tc := ⟨.vmem, 98, rfl⟩
abbrev cc17_stg0_1 : Ref sig .tc := ⟨.vmem, 99, rfl⟩
abbrev cc17_stg1_0 : Ref sig .tc := ⟨.vmem, 100, rfl⟩
abbrev cc17_stg1_1 : Ref sig .tc := ⟨.vmem, 101, rfl⟩
abbrev cc17_stg2_0 : Ref sig .tc := ⟨.vmem, 102, rfl⟩
abbrev cc17_stg2_1 : Ref sig .tc := ⟨.vmem, 103, rfl⟩
abbrev cc18_stg0_0 : Ref sig .tc := ⟨.vmem, 104, rfl⟩
abbrev cc18_stg0_1 : Ref sig .tc := ⟨.vmem, 105, rfl⟩
abbrev cc18_stg1_0 : Ref sig .tc := ⟨.vmem, 106, rfl⟩
abbrev cc18_stg1_1 : Ref sig .tc := ⟨.vmem, 107, rfl⟩
abbrev cc18_stg2_0 : Ref sig .tc := ⟨.vmem, 108, rfl⟩
abbrev cc18_stg2_1 : Ref sig .tc := ⟨.vmem, 109, rfl⟩
abbrev cc19_stg0_0 : Ref sig .tc := ⟨.vmem, 110, rfl⟩
abbrev cc19_stg0_1 : Ref sig .tc := ⟨.vmem, 111, rfl⟩
abbrev cc19_stg1_0 : Ref sig .tc := ⟨.vmem, 112, rfl⟩
abbrev cc19_stg1_1 : Ref sig .tc := ⟨.vmem, 113, rfl⟩
abbrev cc19_stg2_0 : Ref sig .tc := ⟨.vmem, 114, rfl⟩
abbrev cc19_stg2_1 : Ref sig .tc := ⟨.vmem, 115, rfl⟩
abbrev cc20_stg0_0 : Ref sig .tc := ⟨.vmem, 116, rfl⟩
abbrev cc20_stg0_1 : Ref sig .tc := ⟨.vmem, 117, rfl⟩
abbrev cc20_stg1_0 : Ref sig .tc := ⟨.vmem, 118, rfl⟩
abbrev cc20_stg1_1 : Ref sig .tc := ⟨.vmem, 119, rfl⟩
abbrev cc20_stg2_0 : Ref sig .tc := ⟨.vmem, 120, rfl⟩
abbrev cc20_stg2_1 : Ref sig .tc := ⟨.vmem, 121, rfl⟩
abbrev cc21_stg0_0 : Ref sig .tc := ⟨.vmem, 122, rfl⟩
abbrev cc21_stg0_1 : Ref sig .tc := ⟨.vmem, 123, rfl⟩
abbrev cc21_stg1_0 : Ref sig .tc := ⟨.vmem, 124, rfl⟩
abbrev cc21_stg1_1 : Ref sig .tc := ⟨.vmem, 125, rfl⟩
abbrev cc21_stg2_0 : Ref sig .tc := ⟨.vmem, 126, rfl⟩
abbrev cc21_stg2_1 : Ref sig .tc := ⟨.vmem, 127, rfl⟩
abbrev cc22_stg0_0 : Ref sig .tc := ⟨.vmem, 128, rfl⟩
abbrev cc22_stg0_1 : Ref sig .tc := ⟨.vmem, 129, rfl⟩
abbrev cc22_stg1_0 : Ref sig .tc := ⟨.vmem, 130, rfl⟩
abbrev cc22_stg2_0 : Ref sig .tc := ⟨.vmem, 131, rfl⟩
abbrev cc22_stg3_0 : Ref sig .tc := ⟨.vmem, 132, rfl⟩
abbrev cc22_stg3_1 : Ref sig .tc := ⟨.vmem, 133, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem4_0 : DmaSem sig := 65
abbrev cc11_sem5_0 : DmaSem sig := 66
abbrev cc11_sem5_1 : DmaSem sig := 67
abbrev cc12_sem0_0 : DmaSem sig := 68
abbrev cc12_sem0_1 : DmaSem sig := 69
abbrev cc12_sem1_0 : DmaSem sig := 70
abbrev cc12_sem1_1 : DmaSem sig := 71
abbrev cc12_sem2_0 : DmaSem sig := 72
abbrev cc12_sem2_1 : DmaSem sig := 73
abbrev cc13_sem0_0 : DmaSem sig := 74
abbrev cc13_sem0_1 : DmaSem sig := 75
abbrev cc13_sem1_0 : DmaSem sig := 76
abbrev cc13_sem1_1 : DmaSem sig := 77
abbrev cc13_sem2_0 : DmaSem sig := 78
abbrev cc13_sem2_1 : DmaSem sig := 79
abbrev cc14_sem0_0 : DmaSem sig := 80
abbrev cc14_sem0_1 : DmaSem sig := 81
abbrev cc14_sem1_0 : DmaSem sig := 82
abbrev cc14_sem1_1 : DmaSem sig := 83
abbrev cc14_sem2_0 : DmaSem sig := 84
abbrev cc14_sem2_1 : DmaSem sig := 85
abbrev cc15_sem0_0 : DmaSem sig := 86
abbrev cc15_sem0_1 : DmaSem sig := 87
abbrev cc15_sem1_0 : DmaSem sig := 88
abbrev cc15_sem1_1 : DmaSem sig := 89
abbrev cc15_sem2_0 : DmaSem sig := 90
abbrev cc15_sem2_1 : DmaSem sig := 91
abbrev cc16_sem0_0 : DmaSem sig := 92
abbrev cc16_sem0_1 : DmaSem sig := 93
abbrev cc16_sem1_0 : DmaSem sig := 94
abbrev cc16_sem1_1 : DmaSem sig := 95
abbrev cc16_sem2_0 : DmaSem sig := 96
abbrev cc16_sem2_1 : DmaSem sig := 97
abbrev cc17_sem0_0 : DmaSem sig := 98
abbrev cc17_sem0_1 : DmaSem sig := 99
abbrev cc17_sem1_0 : DmaSem sig := 100
abbrev cc17_sem1_1 : DmaSem sig := 101
abbrev cc17_sem2_0 : DmaSem sig := 102
abbrev cc17_sem2_1 : DmaSem sig := 103
abbrev cc18_sem0_0 : DmaSem sig := 104
abbrev cc18_sem0_1 : DmaSem sig := 105
abbrev cc18_sem1_0 : DmaSem sig := 106
abbrev cc18_sem1_1 : DmaSem sig := 107
abbrev cc18_sem2_0 : DmaSem sig := 108
abbrev cc18_sem2_1 : DmaSem sig := 109
abbrev cc19_sem0_0 : DmaSem sig := 110
abbrev cc19_sem0_1 : DmaSem sig := 111
abbrev cc19_sem1_0 : DmaSem sig := 112
abbrev cc19_sem1_1 : DmaSem sig := 113
abbrev cc19_sem2_0 : DmaSem sig := 114
abbrev cc19_sem2_1 : DmaSem sig := 115
abbrev cc20_sem0_0 : DmaSem sig := 116
abbrev cc20_sem0_1 : DmaSem sig := 117
abbrev cc20_sem1_0 : DmaSem sig := 118
abbrev cc20_sem1_1 : DmaSem sig := 119
abbrev cc20_sem2_0 : DmaSem sig := 120
abbrev cc20_sem2_1 : DmaSem sig := 121
abbrev cc21_sem0_0 : DmaSem sig := 122
abbrev cc21_sem0_1 : DmaSem sig := 123
abbrev cc21_sem1_0 : DmaSem sig := 124
abbrev cc21_sem1_1 : DmaSem sig := 125
abbrev cc21_sem2_0 : DmaSem sig := 126
abbrev cc21_sem2_1 : DmaSem sig := 127
abbrev cc22_sem0_0 : DmaSem sig := 128
abbrev cc22_sem0_1 : DmaSem sig := 129
abbrev cc22_sem1_0 : DmaSem sig := 130
abbrev cc22_sem2_0 : DmaSem sig := 131
abbrev cc22_sem3_0 : DmaSem sig := 132
abbrev cc22_sem3_1 : DmaSem sig := 133

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S5000x64 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S5000x64 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 2 → Memref sig .tc .vmem S5000x64 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S5000x64 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 2 → Memref sig .tc .vmem S5000x64 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S5000x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S5000x64 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S5000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S5000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S5000x64 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S5000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S5000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 2 → Memref sig .tc .vmem S5000x64 .f32 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![true]

abbrev stage18_2 : Fin 2 → Memref sig .tc .vmem S5000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S5000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 2 → Memref sig .tc .vmem S5000x64 .f32 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![true]

abbrev stage19_2 : Fin 2 → Memref sig .tc .vmem S5000x64 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![10], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S5000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S5000x64 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S5000x64 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev grid21 : Pipeline.Grid := ⟨1, ![10], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_2 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S5000x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 2 → Memref sig .tc .vmem S5000x64 .f32 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![true]

abbrev stage21_2 : Fin 2 → Memref sig .tc .vmem S5000x64 .f32 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true]

abbrev grid22 : Pipeline.Grid := ⟨1, ![10], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S5000x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S64x64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x64 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S5000x64 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  shapeCasts_S1x64_S1x64 : S1x64.ShapeCasts S1x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  inb_S64x64_S64x64_0_0 : ∀ a, (![0, 0] : Fin 2 → Nat) a + S64x64.size a ≤ S64x64.size a
  h_S64x64 : 0 < S64x64.numel
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  shapeCasts_S64x64_S64x64 : S64x64.ShapeCasts S64x64
  slices_S2x64x64_S1x64x64_1_0_0 : S2x64x64.Slices ![1, 0, 0] S1x64x64
  slices_S2x64_S1x64_1_0 : S2x64.Slices ![1, 0] S1x64
  reduces_S5000x64_S5000 : S5000x64.Reduces [1] S5000
  shapeCasts_S5000_S5000x1 : S5000.ShapeCasts S5000x1
  broadcasts_S5000x1_S5000x64 : S5000x1.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S50000x64.size a
  hwx8_5 : ∀ i : grid8.Coords, EltTy.bits .f32 = 32 ∨ (Rect.block (s := S50000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S50000x64.size a
  hwx9_2 : ∀ i : grid9.Coords, EltTy.bits .f32 = 32 ∨ (Rect.block (s := S50000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x64.size a ≤ S50000x64.size a
  hwx11_5 : ∀ i : grid11.Coords, EltTy.bits .f32 = 32 ∨ (Rect.block (s := S50000x64) S5000x64.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S50000x64.size a
  hwx12_0 : ∀ i : grid12.Coords, EltTy.bits .f32 = 32 ∨ (Rect.block (s := S50000x64) S5000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x64.size a ≤ S50000x64.size a
  hwx12_1 : ∀ i : grid12.Coords, EltTy.bits .f32 = 32 ∨ (Rect.block (s := S50000x64) S5000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S50000x64.size a
  hwx12_2 : ∀ i : grid12.Coords, EltTy.bits .f32 = 32 ∨ (Rect.block (s := S50000x64) S5000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S50000x64.size a
  hwx13_1 : ∀ i : grid13.Coords, EltTy.bits .f32 = 32 ∨ (Rect.block (s := S50000x64) S5000x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S50000x64.size a
  hwx13_2 : ∀ i : grid13.Coords, EltTy.bits .f32 = 32 ∨ (Rect.block (s := S50000x64) S5000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S5000x64.size a ≤ S50000x64.size a
  hwx14_1 : ∀ i : grid14.Coords, EltTy.bits .f32 = 32 ∨ (Rect.block (s := S50000x64) S5000x64.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S5000x64.size a ≤ S50000x64.size a
  hwx14_2 : ∀ i : grid14.Coords, EltTy.bits .f32 = 32 ∨ (Rect.block (s := S50000x64) S5000x64.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S50000x64.size a
  hwx15_0 : ∀ i : grid15.Coords, EltTy.bits .f32 = 32 ∨ (Rect.block (s := S50000x64) S5000x64.size (cc15_transform_0 i) (hinb15_0 i)).WholeWords (EltTy.packing .f32)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S5000x64.size a ≤ S50000x64.size a
  hwx15_1 : ∀ i : grid15.Coords, EltTy.bits .f32 = 32 ∨ (Rect.block (s := S50000x64) S5000x64.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S5000x64.size a ≤ S50000x64.size a
  hwx15_2 : ∀ i : grid15.Coords, EltTy.bits .f32 = 32 ∨ (Rect.block (s := S50000x64) S5000x64.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S5000x64.size a ≤ S50000x64.size a
  hwx16_0 : ∀ i : grid16.Coords, EltTy.bits .f32 = 32 ∨ (Rect.block (s := S50000x64) S5000x64.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S5000x64.size a ≤ S50000x64.size a
  hwx16_1 : ∀ i : grid16.Coords, EltTy.bits .f32 = 32 ∨ (Rect.block (s := S50000x64) S5000x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S5000x64.size a ≤ S50000x64.size a
  hwx16_2 : ∀ i : grid16.Coords, EltTy.bits .f32 = 32 ∨ (Rect.block (s := S50000x64) S5000x64.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S5000x64.size a ≤ S50000x64.size a
  hwx17_0 : ∀ i : grid17.Coords, EltTy.bits .f32 = 32 ∨ (Rect.block (s := S50000x64) S5000x64.size (cc17_transform_0 i) (hinb17_0 i)).WholeWords (EltTy.packing .f32)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S5000x64.size a ≤ S50000x64.size a
  hwx17_1 : ∀ i : grid17.Coords, EltTy.bits .f32 = 32 ∨ (Rect.block (s := S50000x64) S5000x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S5000x64.size a ≤ S50000x64.size a
  hwx17_2 : ∀ i : grid17.Coords, EltTy.bits .f32 = 32 ∨ (Rect.block (s := S50000x64) S5000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S5000x64.size a ≤ S50000x64.size a
  hwx18_0 : ∀ i : grid18.Coords, EltTy.bits .f32 = 32 ∨ (Rect.block (s := S50000x64) S5000x64.size (cc18_transform_0 i) (hinb18_0 i)).WholeWords (EltTy.packing .f32)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S5000x64.size a ≤ S50000x64.size a
  hwx18_1 : ∀ i : grid18.Coords, EltTy.bits .f32 = 32 ∨ (Rect.block (s := S50000x64) S5000x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S5000x64.size a ≤ S50000x64.size a
  hwx18_2 : ∀ i : grid18.Coords, EltTy.bits .f32 = 32 ∨ (Rect.block (s := S50000x64) S5000x64.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S5000x64.size a ≤ S50000x64.size a
  hwx19_0 : ∀ i : grid19.Coords, EltTy.bits .f32 = 32 ∨ (Rect.block (s := S50000x64) S5000x64.size (cc19_transform_0 i) (hinb19_0 i)).WholeWords (EltTy.packing .f32)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S5000x64.size a ≤ S50000x64.size a
  hwx19_1 : ∀ i : grid19.Coords, EltTy.bits .f32 = 32 ∨ (Rect.block (s := S50000x64) S5000x64.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S5000x64.size a ≤ S50000x64.size a
  hwx19_2 : ∀ i : grid19.Coords, EltTy.bits .f32 = 32 ∨ (Rect.block (s := S50000x64) S5000x64.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S5000x64.size a ≤ S50000x64.size a
  hwx20_0 : ∀ i : grid20.Coords, EltTy.bits .f32 = 32 ∨ (Rect.block (s := S50000x64) S5000x64.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S5000x64.size a ≤ S50000x64.size a
  hwx20_1 : ∀ i : grid20.Coords, EltTy.bits .f32 = 32 ∨ (Rect.block (s := S50000x64) S5000x64.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S5000x64.size a ≤ S50000x64.size a
  hwx20_2 : ∀ i : grid20.Coords, EltTy.bits .f32 = 32 ∨ (Rect.block (s := S50000x64) S5000x64.size (cc20_transform_2 i) (hinb20_2 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S5000x64.size a ≤ S50000x64.size a
  hwx21_0 : ∀ i : grid21.Coords, EltTy.bits .f32 = 32 ∨ (Rect.block (s := S50000x64) S5000x64.size (cc21_transform_0 i) (hinb21_0 i)).WholeWords (EltTy.packing .f32)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S5000x64.size a ≤ S50000x64.size a
  hwx21_1 : ∀ i : grid21.Coords, EltTy.bits .f32 = 32 ∨ (Rect.block (s := S50000x64) S5000x64.size (cc21_transform_1 i) (hinb21_1 i)).WholeWords (EltTy.packing .f32)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S5000x64.size a ≤ S50000x64.size a
  hwx21_2 : ∀ i : grid21.Coords, EltTy.bits .f32 = 32 ∨ (Rect.block (s := S50000x64) S5000x64.size (cc21_transform_2 i) (hinb21_2 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S5000x64.size a ≤ S50000x64.size a
  hwx22_0 : ∀ i : grid22.Coords, EltTy.bits .f32 = 32 ∨ (Rect.block (s := S50000x64) S5000x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S64x64.size a ≤ S64x64.size a
  hwx22_1 : ∀ i : grid22.Coords, EltTy.bits .f32 = 32 ∨ (Rect.block (s := S64x64) S64x64.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x64.size a ≤ S1x64.size a
  hwx22_2 : ∀ i : grid22.Coords, EltTy.bits .f32 = 32 ∨ (Rect.block (s := S1x64) S1x64.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S5000x64.size a ≤ S50000x64.size a
  hwx22_3 : ∀ i : grid22.Coords, EltTy.bits .f32 = 32 ∨ (Rect.block (s := S50000x64) S5000x64.size (cc22_transform_3 i) (hinb22_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v104) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v105_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v104) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v107) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v111) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v112) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v113) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v114) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v114) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v116) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v119) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v135) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v136_0) S1x64.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v136_1) S1x64.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v135) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v138) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v142) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v143) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v144) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v145) S5000x64.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v158) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v145) S5000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v159) S5000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v172) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v145) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v173) S5000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v186) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v145) S5000x64.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_v187) S5000x64.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v200) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v145) S5000x64.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_v201) S5000x64.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v214) S5000x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v145) S5000x64.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v215) S5000x64.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v228) S5000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v145) S5000x64.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_v229) S5000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v242) S5000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v145) S5000x64.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_v243) S5000x64.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v256) S5000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v145) S5000x64.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_v257) S5000x64.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v270) S5000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v145) S5000x64.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v271) S5000x64.size cc20_transform_2 reads20_2 true false 2 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

abbrev win21_0 : Pipeline.Window sig grid21 :=
  Pipeline.Window.ofSpec (Memref.whole main_v284) S5000x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v145) S5000x64.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_v285) S5000x64.size cc21_transform_2 reads21_2 true false 2 stage21_2 sem21_2
    hrank21 hreads21_2 hinb21_2 nbuf21_2 (Memref.isWhole_whole _) hwx21_2 hstage21_2

abbrev win21 : Fin 3 → Pipeline.Window sig grid21 := fun | 0 => win21_0 | 1 => win21_1 | 2 => win21_2 | ⟨_ + 3, h⟩ => absurd h (Nat.not_lt.2 (Nat.le_add_left _ _))
abbrev spec21 : Fin 3 → Pipeline.WinSpec sig grid21.rank := fun w => (win21 w).toWinSpec

abbrev win22_0 : Pipeline.Window sig grid22 :=
  Pipeline.Window.ofSpec (Memref.whole main_v285) S5000x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_arg14) S64x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v286) S1x64.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v287) S5000x64.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S2x64x64 : Shape := ⟨3, ![2, 64, 64]⟩
abbrev S2x64 : Shape := ⟨2, ![2, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S1x64x64 : Shape := ⟨3, ![1, 64, 64]⟩
abbrev S50000x1 : Shape := ⟨2, ![50000, 1]⟩

abbrev nBuf : Space → Nat
  | .hbm => 581
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S2x64x64, .f32⟩
  | 7 => ⟨S2x64, .f32⟩
  | 8 => ⟨S64, .f32⟩
  | 9 => ⟨S64, .f32⟩
  | 10 => ⟨S64, .f32⟩
  | 11 => ⟨S64, .f32⟩
  | 12 => ⟨S64, .f32⟩
  | 13 => ⟨S64, .f32⟩
  | 14 => ⟨S64x64, .f32⟩
  | 15 => ⟨S64, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S50000x64, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x64, .f32⟩
  | 66 => ⟨S850000x1, .f32⟩
  | 67 => ⟨S850000x64, .f32⟩
  | 68 => ⟨S850000x64, .f32⟩
  | 69 => ⟨S_, .f32⟩
  | 70 => ⟨S50000x64, .f32⟩
  | 71 => ⟨S850000x1, .i32⟩
  | 72 => ⟨S50000x64, .f32⟩
  | 73 => ⟨S1x64, .f32⟩
  | 74 => ⟨S50000x64, .f32⟩
  | 75 => ⟨S50000x64, .f32⟩
  | 76 => ⟨S_, .f32⟩
  | 77 => ⟨S64, .f32⟩
  | 78 => ⟨S_, .f32⟩
  | 79 => ⟨S64, .f32⟩
  | 80 => ⟨S64, .f32⟩
  | 81 => ⟨S_, .i32⟩
  | 82 => ⟨S_, .f32⟩
  | 83 => ⟨S64, .f32⟩
  | 84 => ⟨S1x64, .f32⟩
  | 85 => ⟨S_, .f32⟩
  | 86 => ⟨S1x64, .f32⟩
  | 87 => ⟨S1x64, .f32⟩
  | 88 => ⟨S50000x64, .f32⟩
  | 89 => ⟨S50000x64, .f32⟩
  | 90 => ⟨S50000x64, .f32⟩
  | 91 => ⟨S_, .f32⟩
  | 92 => ⟨S_, .f32⟩
  | 93 => ⟨S_, .f32⟩
  | 94 => ⟨S_, .f32⟩
  | 95 => ⟨S64, .f32⟩
  | 96 => ⟨S64, .f32⟩
  | 97 => ⟨S64, .f32⟩
  | 98 => ⟨S_, .f32⟩
  | 99 => ⟨S_, .i1⟩
  | 100 => ⟨S_, .f32⟩
  | 101 => ⟨S_, .f32⟩
  | 102 => ⟨S64, .f32⟩
  | 103 => ⟨S64, .f32⟩
  | 104 => ⟨S1x64, .f32⟩
  | 105 => ⟨S50000x64, .f32⟩
  | 106 => ⟨S50000x64, .f32⟩
  | 107 => ⟨S1x64, .f32⟩
  | 108 => ⟨S50000x64, .f32⟩
  | 109 => ⟨S50000x64, .f32⟩
  | 110 => ⟨S_, .f32⟩
  | 111 => ⟨S64, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S_, .i32⟩
  | 125 => ⟨S850000, .i32⟩
  | 126 => ⟨S850000, .i1⟩
  | 127 => ⟨S_, .i32⟩
  | _ => ⟨S50000x128, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x64, .f32⟩
  | 5 => ⟨S850000x1, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S50000x64, .f32⟩
  | 14 => ⟨S50000x64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S50000x64, .f32⟩
  | 28 => ⟨S50000x64, .f32⟩
  | 29 => ⟨S50000x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S_, .f32⟩
  | 50 => ⟨S64, .f32⟩
  | 51 => ⟨S64, .f32⟩
  | 52 => ⟨S64, .f32⟩
  | 53 => ⟨S1x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S1x64x64, .f32⟩
  | 63 => ⟨S64x64, .f32⟩
  | 64 => ⟨S50000x64, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000x64, .f32⟩
  | 74 => ⟨S850000x1, .f32⟩
  | 75 => ⟨S850000x64, .f32⟩
  | 76 => ⟨S850000x64, .f32⟩
  | 77 => ⟨S_, .f32⟩
  | 78 => ⟨S50000x64, .f32⟩
  | 79 => ⟨S850000x1, .i32⟩
  | 80 => ⟨S50000x64, .f32⟩
  | 81 => ⟨S1x64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S64, .f32⟩
  | 88 => ⟨S_, .f32⟩
  | 89 => ⟨S64, .f32⟩
  | 90 => ⟨S64, .f32⟩
  | 91 => ⟨S_, .i32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S50000x64, .f32⟩
  | 99 => ⟨S50000x64, .f32⟩
  | 100 => ⟨S50000x64, .f32⟩
  | 101 => ⟨S_, .f32⟩
  | 102 => ⟨S_, .f32⟩
  | 103 => ⟨S_, .f32⟩
  | 104 => ⟨S_, .f32⟩
  | 105 => ⟨S64, .f32⟩
  | 106 => ⟨S64, .f32⟩
  | 107 => ⟨S64, .f32⟩
  | 108 => ⟨S_, .f32⟩
  | 109 => ⟨S_, .i1⟩
  | 110 => ⟨S_, .f32⟩
  | 111 => ⟨S_, .f32⟩
  | 112 => ⟨S64, .f32⟩
  | 113 => ⟨S64, .f32⟩
  | 114 => ⟨S1x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S64, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x128, .f32⟩

abbrev hbmTy0_2 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S1x64x64, .f32⟩
  | 6 => ⟨S64x64, .f32⟩
  | 7 => ⟨S50000x64, .f32⟩
  | 8 => ⟨S_, .i32⟩
  | 9 => ⟨S850000, .i32⟩
  | 10 => ⟨S850000, .i1⟩
  | 11 => ⟨S_, .i32⟩
  | 12 => ⟨S850000, .i32⟩
  | 13 => ⟨S850000, .i32⟩
  | 14 => ⟨S850000, .i32⟩
  | 15 => ⟨S850000x1, .i32⟩
  | 16 => ⟨S850000x64, .f32⟩
  | 17 => ⟨S850000x1, .f32⟩
  | 18 => ⟨S850000x64, .f32⟩
  | 19 => ⟨S850000x64, .f32⟩
  | 20 => ⟨S_, .f32⟩
  | 21 => ⟨S50000x64, .f32⟩
  | 22 => ⟨S850000x1, .i32⟩
  | 23 => ⟨S50000x64, .f32⟩
  | 24 => ⟨S1x64, .f32⟩
  | 25 => ⟨S64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S_, .f32⟩
  | 32 => ⟨S64, .f32⟩
  | 33 => ⟨S64, .f32⟩
  | 34 => ⟨S_, .i32⟩
  | 35 => ⟨S_, .f32⟩
  | 36 => ⟨S64, .f32⟩
  | 37 => ⟨S1x64, .f32⟩
  | 38 => ⟨S_, .f32⟩
  | 39 => ⟨S1x64, .f32⟩
  | 40 => ⟨S1x64, .f32⟩
  | 41 => ⟨S50000x64, .f32⟩
  | 42 => ⟨S50000x64, .f32⟩
  | 43 => ⟨S50000x64, .f32⟩
  | 44 => ⟨S_, .f32⟩
  | 45 => ⟨S_, .f32⟩
  | 46 => ⟨S_, .f32⟩
  | 47 => ⟨S_, .f32⟩
  | 48 => ⟨S64, .f32⟩
  | 49 => ⟨S64, .f32⟩
  | 50 => ⟨S64, .f32⟩
  | 51 => ⟨S_, .f32⟩
  | 52 => ⟨S_, .i1⟩
  | 53 => ⟨S_, .f32⟩
  | 54 => ⟨S_, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S_, .f32⟩
  | 64 => ⟨S64, .f32⟩
  | 65 => ⟨S64, .f32⟩
  | 66 => ⟨S64, .f32⟩
  | 67 => ⟨S1x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000x64, .f32⟩
  | 85 => ⟨S850000x1, .f32⟩
  | 86 => ⟨S850000x64, .f32⟩
  | 87 => ⟨S850000x64, .f32⟩
  | 88 => ⟨S_, .f32⟩
  | 89 => ⟨S50000x64, .f32⟩
  | 90 => ⟨S850000x1, .i32⟩
  | 91 => ⟨S50000x64, .f32⟩
  | 92 => ⟨S_, .f32⟩
  | 93 => ⟨S50000x64, .f32⟩
  | 94 => ⟨S50000x64, .f32⟩
  | 95 => ⟨S_, .f32⟩
  | 96 => ⟨S50000x64, .f32⟩
  | 97 => ⟨S50000x64, .f32⟩
  | 98 => ⟨S50000x64, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x64, .f32⟩
  | 108 => ⟨S850000x1, .f32⟩
  | 109 => ⟨S850000x64, .f32⟩
  | 110 => ⟨S850000x64, .f32⟩
  | 111 => ⟨S_, .f32⟩
  | 112 => ⟨S50000x64, .f32⟩
  | 113 => ⟨S850000x1, .i32⟩
  | 114 => ⟨S50000x64, .f32⟩
  | 115 => ⟨S_, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_3 (i : Nat) : BufTy := match i % 128 with
  | 0 => ⟨S850000, .i32⟩
  | 1 => ⟨S850000x1, .i32⟩
  | 2 => ⟨S850000x64, .f32⟩
  | 3 => ⟨S850000x1, .f32⟩
  | 4 => ⟨S850000x64, .f32⟩
  | 5 => ⟨S850000x64, .f32⟩
  | 6 => ⟨S_, .f32⟩
  | 7 => ⟨S50000x64, .f32⟩
  | 8 => ⟨S850000x1, .i32⟩
  | 9 => ⟨S50000x64, .f32⟩
  | 10 => ⟨S_, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x64, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000x64, .f32⟩
  | 26 => ⟨S850000x1, .f32⟩
  | 27 => ⟨S850000x64, .f32⟩
  | 28 => ⟨S850000x64, .f32⟩
  | 29 => ⟨S_, .f32⟩
  | 30 => ⟨S50000x64, .f32⟩
  | 31 => ⟨S850000x1, .i32⟩
  | 32 => ⟨S50000x64, .f32⟩
  | 33 => ⟨S_, .f32⟩
  | 34 => ⟨S50000x64, .f32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000x64, .f32⟩
  | 49 => ⟨S850000x1, .f32⟩
  | 50 => ⟨S850000x64, .f32⟩
  | 51 => ⟨S850000x64, .f32⟩
  | 52 => ⟨S_, .f32⟩
  | 53 => ⟨S50000x64, .f32⟩
  | 54 => ⟨S850000x1, .i32⟩
  | 55 => ⟨S50000x64, .f32⟩
  | 56 => ⟨S_, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x64, .f32⟩
  | 72 => ⟨S850000x1, .f32⟩
  | 73 => ⟨S850000x64, .f32⟩
  | 74 => ⟨S850000x64, .f32⟩
  | 75 => ⟨S_, .f32⟩
  | 76 => ⟨S50000x64, .f32⟩
  | 77 => ⟨S850000x1, .i32⟩
  | 78 => ⟨S50000x64, .f32⟩
  | 79 => ⟨S_, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x64, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x64, .f32⟩
  | 95 => ⟨S850000x1, .f32⟩
  | 96 => ⟨S850000x64, .f32⟩
  | 97 => ⟨S850000x64, .f32⟩
  | 98 => ⟨S_, .f32⟩
  | 99 => ⟨S50000x64, .f32⟩
  | 100 => ⟨S850000x1, .i32⟩
  | 101 => ⟨S50000x64, .f32⟩
  | 102 => ⟨S_, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S_, .i32⟩
  | 110 => ⟨S850000, .i32⟩
  | 111 => ⟨S850000, .i1⟩
  | 112 => ⟨S_, .i32⟩
  | 113 => ⟨S850000, .i32⟩
  | 114 => ⟨S850000, .i32⟩
  | 115 => ⟨S850000, .i32⟩
  | 116 => ⟨S850000x1, .i32⟩
  | 117 => ⟨S850000x64, .f32⟩
  | 118 => ⟨S850000x1, .f32⟩
  | 119 => ⟨S850000x64, .f32⟩
  | 120 => ⟨S850000x64, .f32⟩
  | 121 => ⟨S_, .f32⟩
  | 122 => ⟨S50000x64, .f32⟩
  | 123 => ⟨S850000x1, .i32⟩
  | 124 => ⟨S50000x64, .f32⟩
  | 125 => ⟨S_, .f32⟩
  | 126 => ⟨S50000x64, .f32⟩
  | 127 => ⟨S50000x64, .f32⟩
  | _ => ⟨S50000x128, .f32⟩

abbrev hbmTy0_4 (i : Nat) : BufTy := match i % 128 with
  | 0 => ⟨S_, .f32⟩
  | 1 => ⟨S50000x64, .f32⟩
  | 2 => ⟨S50000x64, .f32⟩
  | 3 => ⟨S50000x64, .f32⟩
  | 4 => ⟨S_, .i32⟩
  | 5 => ⟨S850000, .i32⟩
  | 6 => ⟨S850000, .i1⟩
  | 7 => ⟨S_, .i32⟩
  | 8 => ⟨S850000, .i32⟩
  | 9 => ⟨S850000, .i32⟩
  | 10 => ⟨S850000, .i32⟩
  | 11 => ⟨S850000x1, .i32⟩
  | 12 => ⟨S850000x64, .f32⟩
  | 13 => ⟨S850000x1, .f32⟩
  | 14 => ⟨S850000x64, .f32⟩
  | 15 => ⟨S850000x64, .f32⟩
  | 16 => ⟨S_, .f32⟩
  | 17 => ⟨S50000x64, .f32⟩
  | 18 => ⟨S850000x1, .i32⟩
  | 19 => ⟨S50000x64, .f32⟩
  | 20 => ⟨S_, .f32⟩
  | 21 => ⟨S50000x64, .f32⟩
  | 22 => ⟨S50000x64, .f32⟩
  | 23 => ⟨S_, .f32⟩
  | 24 => ⟨S50000x64, .f32⟩
  | 25 => ⟨S50000x64, .f32⟩
  | 26 => ⟨S50000x64, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x64, .f32⟩
  | 36 => ⟨S850000x1, .f32⟩
  | 37 => ⟨S850000x64, .f32⟩
  | 38 => ⟨S850000x64, .f32⟩
  | 39 => ⟨S_, .f32⟩
  | 40 => ⟨S50000x64, .f32⟩
  | 41 => ⟨S850000x1, .i32⟩
  | 42 => ⟨S50000x64, .f32⟩
  | 43 => ⟨S_, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S50000x64, .f32⟩
  | 50 => ⟨S50000x64, .f32⟩
  | 51 => ⟨S1x64, .f32⟩
  | 52 => ⟨S50000x64, .f32⟩
  | 53 => ⟨S50000x64, .f32⟩
  | 54 => ⟨S_, .f32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x64, .f32⟩
  | 61 => ⟨S50000x64, .f32⟩
  | 62 => ⟨S50000x64, .f32⟩
  | 63 => ⟨S_, .f32⟩
  | 64 => ⟨S50000, .f32⟩
  | 65 => ⟨S50000x1, .f32⟩
  | 66 => ⟨S50000x1, .f32⟩
  | 67 => ⟨S50000x64, .f32⟩
  | 68 => ⟨S50000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_cst_3 : Ref sig .tc := ⟨.hbm, 98, rfl⟩
abbrev main_call1_v12 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_12 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_call2_cst : Ref sig .tc := ⟨.hbm, 120, rfl⟩
abbrev main_call2_v0 : Ref sig .tc := ⟨.hbm, 121, rfl⟩
abbrev main_v66 : Ref sig .tc := ⟨.hbm, 122, rfl⟩
abbrev main_v67 : Ref sig .tc := ⟨.hbm, 123, rfl⟩
abbrev main_c_13 : Ref sig .tc := ⟨.hbm, 124, rfl⟩
abbrev main_v68 : Ref sig .tc := ⟨.hbm, 125, rfl⟩
abbrev main_v69 : Ref sig .tc := ⟨.hbm, 126, rfl⟩
abbrev main_c_14 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_cst_15 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_cst_16 : Ref sig .tc := ⟨.hbm, 143, rfl⟩
abbrev main_v84 : Ref sig .tc := ⟨.hbm, 144, rfl⟩
abbrev main_cst_17 : Ref sig .tc := ⟨.hbm, 145, rfl⟩
abbrev main_v85 : Ref sig .tc := ⟨.hbm, 146, rfl⟩
abbrev main_v86 : Ref sig .tc := ⟨.hbm, 147, rfl⟩
abbrev main_c_18 : Ref sig .tc := ⟨.hbm, 148, rfl⟩
abbrev main_call3_cst : Ref sig .tc := ⟨.hbm, 149, rfl⟩
abbrev main_call3_v0 : Ref sig .tc := ⟨.hbm, 150, rfl⟩
abbrev main_call3_v1 : Ref sig .tc := ⟨.hbm, 151, rfl⟩
abbrev main_call3_cst_0 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_call3_v5 : Ref sig .tc := ⟨.hbm, 156, rfl⟩
abbrev main_call3_v6 : Ref sig .tc := ⟨.hbm, 157, rfl⟩
abbrev main_call3_v7 : Ref sig .tc := ⟨.hbm, 158, rfl⟩
abbrev main_call3_cst_1 : Ref sig .tc := ⟨.hbm, 159, rfl⟩
abbrev main_call3_v8 : Ref sig .tc := ⟨.hbm, 160, rfl⟩
abbrev main_call3_cst_2 : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_cst_3 : Ref sig .tc := ⟨.hbm, 165, rfl⟩
abbrev main_call3_v12 : Ref sig .tc := ⟨.hbm, 166, rfl⟩
abbrev main_call3_cst_4 : Ref sig .tc := ⟨.hbm, 167, rfl⟩
abbrev main_call3_call0_v0 : Ref sig .tc := ⟨.hbm, 168, rfl⟩
abbrev main_call3_call0_v1 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_cst_19 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_v102 : Ref sig .tc := ⟨.hbm, 186, rfl⟩
abbrev main_call4_cst : Ref sig .tc := ⟨.hbm, 187, rfl⟩
abbrev main_call4_v0 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_c_20 : Ref sig .tc := ⟨.hbm, 193, rfl⟩
abbrev main_v107 : Ref sig .tc := ⟨.hbm, 194, rfl⟩
abbrev main_v108 : Ref sig .tc := ⟨.hbm, 195, rfl⟩
abbrev main_c_21 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_cst_22 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_cst_23 : Ref sig .tc := ⟨.hbm, 214, rfl⟩
abbrev main_v125 : Ref sig .tc := ⟨.hbm, 215, rfl⟩
abbrev main_cst_24 : Ref sig .tc := ⟨.hbm, 216, rfl⟩
abbrev main_v126 : Ref sig .tc := ⟨.hbm, 217, rfl⟩
abbrev main_v127 : Ref sig .tc := ⟨.hbm, 218, rfl⟩
abbrev main_c_25 : Ref sig .tc := ⟨.hbm, 219, rfl⟩
abbrev main_call5_cst : Ref sig .tc := ⟨.hbm, 220, rfl⟩
abbrev main_call5_v0 : Ref sig .tc := ⟨.hbm, 221, rfl⟩
abbrev main_call5_v1 : Ref sig .tc := ⟨.hbm, 222, rfl⟩
abbrev main_call5_cst_0 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_call5_v5 : Ref sig .tc := ⟨.hbm, 227, rfl⟩
abbrev main_call5_v6 : Ref sig .tc := ⟨.hbm, 228, rfl⟩
abbrev main_call5_v7 : Ref sig .tc := ⟨.hbm, 229, rfl⟩
abbrev main_call5_cst_1 : Ref sig .tc := ⟨.hbm, 230, rfl⟩
abbrev main_call5_v8 : Ref sig .tc := ⟨.hbm, 231, rfl⟩
abbrev main_call5_cst_2 : Ref sig .tc := ⟨.hbm, 232, rfl⟩
abbrev main_call5_v9 : Ref sig .tc := ⟨.hbm, 233, rfl⟩
abbrev main_call5_v10 : Ref sig .tc := ⟨.hbm, 234, rfl⟩
abbrev main_call5_v11 : Ref sig .tc := ⟨.hbm, 235, rfl⟩
abbrev main_call5_cst_3 : Ref sig .tc := ⟨.hbm, 236, rfl⟩
abbrev main_call5_v12 : Ref sig .tc := ⟨.hbm, 237, rfl⟩
abbrev main_call5_cst_4 : Ref sig .tc := ⟨.hbm, 238, rfl⟩
abbrev main_call5_call0_v0 : Ref sig .tc := ⟨.hbm, 239, rfl⟩
abbrev main_call5_call0_v1 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_cst_26 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_call6_cst : Ref sig .tc := ⟨.hbm, 258, rfl⟩
abbrev main_call6_v0 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_c_27 : Ref sig .tc := ⟨.hbm, 264, rfl⟩
abbrev main_v148 : Ref sig .tc := ⟨.hbm, 265, rfl⟩
abbrev main_v149 : Ref sig .tc := ⟨.hbm, 266, rfl⟩
abbrev main_c_28 : Ref sig .tc := ⟨.hbm, 267, rfl⟩
abbrev main_v150 : Ref sig .tc := ⟨.hbm, 268, rfl⟩
abbrev main_v151 : Ref sig .tc := ⟨.hbm, 269, rfl⟩
abbrev main_v152 : Ref sig .tc := ⟨.hbm, 270, rfl⟩
abbrev main_v153 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_cst_29 : Ref sig .tc := ⟨.hbm, 276, rfl⟩
abbrev main_v158 : Ref sig .tc := ⟨.hbm, 277, rfl⟩
abbrev main_v159 : Ref sig .tc := ⟨.hbm, 278, rfl⟩
abbrev main_v160 : Ref sig .tc := ⟨.hbm, 279, rfl⟩
abbrev main_v161 : Ref sig .tc := ⟨.hbm, 280, rfl⟩
abbrev main_v162 : Ref sig .tc := ⟨.hbm, 281, rfl⟩
abbrev main_v163 : Ref sig .tc := ⟨.hbm, 282, rfl⟩
abbrev main_v164 : Ref sig .tc := ⟨.hbm, 283, rfl⟩
abbrev main_v165 : Ref sig .tc := ⟨.hbm, 284, rfl⟩
abbrev main_cst_30 : Ref sig .tc := ⟨.hbm, 285, rfl⟩
abbrev main_v166 : Ref sig .tc := ⟨.hbm, 286, rfl⟩
abbrev main_cst_31 : Ref sig .tc := ⟨.hbm, 287, rfl⟩
abbrev main_v167 : Ref sig .tc := ⟨.hbm, 288, rfl⟩
abbrev main_v168 : Ref sig .tc := ⟨.hbm, 289, rfl⟩
abbrev main_c_32 : Ref sig .tc := ⟨.hbm, 290, rfl⟩
abbrev main_call7_cst : Ref sig .tc := ⟨.hbm, 291, rfl⟩
abbrev main_call7_v0 : Ref sig .tc := ⟨.hbm, 292, rfl⟩
abbrev main_call7_v1 : Ref sig .tc := ⟨.hbm, 293, rfl⟩
abbrev main_call7_cst_0 : Ref sig .tc := ⟨.hbm, 294, rfl⟩
abbrev main_call7_v2 : Ref sig .tc := ⟨.hbm, 295, rfl⟩
abbrev main_call7_v3 : Ref sig .tc := ⟨.hbm, 296, rfl⟩
abbrev main_call7_v4 : Ref sig .tc := ⟨.hbm, 297, rfl⟩
abbrev main_call7_v5 : Ref sig .tc := ⟨.hbm, 298, rfl⟩
abbrev main_call7_v6 : Ref sig .tc := ⟨.hbm, 299, rfl⟩
abbrev main_call7_v7 : Ref sig .tc := ⟨.hbm, 300, rfl⟩
abbrev main_call7_cst_1 : Ref sig .tc := ⟨.hbm, 301, rfl⟩
abbrev main_call7_v8 : Ref sig .tc := ⟨.hbm, 302, rfl⟩
abbrev main_call7_cst_2 : Ref sig .tc := ⟨.hbm, 303, rfl⟩
abbrev main_call7_v9 : Ref sig .tc := ⟨.hbm, 304, rfl⟩
abbrev main_call7_v10 : Ref sig .tc := ⟨.hbm, 305, rfl⟩
abbrev main_call7_v11 : Ref sig .tc := ⟨.hbm, 306, rfl⟩
abbrev main_call7_cst_3 : Ref sig .tc := ⟨.hbm, 307, rfl⟩
abbrev main_call7_v12 : Ref sig .tc := ⟨.hbm, 308, rfl⟩
abbrev main_call7_cst_4 : Ref sig .tc := ⟨.hbm, 309, rfl⟩
abbrev main_call7_call0_v0 : Ref sig .tc := ⟨.hbm, 310, rfl⟩
abbrev main_call7_call0_v1 : Ref sig .tc := ⟨.hbm, 311, rfl⟩
abbrev main_v169 : Ref sig .tc := ⟨.hbm, 312, rfl⟩
abbrev main_v170 : Ref sig .tc := ⟨.hbm, 313, rfl⟩
abbrev main_v171 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_cst_33 : Ref sig .tc := ⟨.hbm, 319, rfl⟩
abbrev main_v176 : Ref sig .tc := ⟨.hbm, 320, rfl⟩
abbrev main_v177 : Ref sig .tc := ⟨.hbm, 321, rfl⟩
abbrev main_v178 : Ref sig .tc := ⟨.hbm, 322, rfl⟩
abbrev main_v179 : Ref sig .tc := ⟨.hbm, 323, rfl⟩
abbrev main_v180 : Ref sig .tc := ⟨.hbm, 324, rfl⟩
abbrev main_v181 : Ref sig .tc := ⟨.hbm, 325, rfl⟩
abbrev main_v182 : Ref sig .tc := ⟨.hbm, 326, rfl⟩
abbrev main_v183 : Ref sig .tc := ⟨.hbm, 327, rfl⟩
abbrev main_v184 : Ref sig .tc := ⟨.hbm, 328, rfl⟩
abbrev main_call8_cst : Ref sig .tc := ⟨.hbm, 329, rfl⟩
abbrev main_call8_v0 : Ref sig .tc := ⟨.hbm, 330, rfl⟩
abbrev main_v185 : Ref sig .tc := ⟨.hbm, 331, rfl⟩
abbrev main_c_34 : Ref sig .tc := ⟨.hbm, 332, rfl⟩
abbrev main_v186 : Ref sig .tc := ⟨.hbm, 333, rfl⟩
abbrev main_v187 : Ref sig .tc := ⟨.hbm, 334, rfl⟩
abbrev main_c_35 : Ref sig .tc := ⟨.hbm, 335, rfl⟩
abbrev main_v188 : Ref sig .tc := ⟨.hbm, 336, rfl⟩
abbrev main_v189 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_v193 : Ref sig .tc := ⟨.hbm, 341, rfl⟩
abbrev main_v194 : Ref sig .tc := ⟨.hbm, 342, rfl⟩
abbrev main_v195 : Ref sig .tc := ⟨.hbm, 343, rfl⟩
abbrev main_cst_36 : Ref sig .tc := ⟨.hbm, 344, rfl⟩
abbrev main_v196 : Ref sig .tc := ⟨.hbm, 345, rfl⟩
abbrev main_v197 : Ref sig .tc := ⟨.hbm, 346, rfl⟩
abbrev main_v198 : Ref sig .tc := ⟨.hbm, 347, rfl⟩
abbrev main_cst_37 : Ref sig .tc := ⟨.hbm, 348, rfl⟩
abbrev main_v199 : Ref sig .tc := ⟨.hbm, 349, rfl⟩
abbrev main_v200 : Ref sig .tc := ⟨.hbm, 350, rfl⟩
abbrev main_cst_38 : Ref sig .tc := ⟨.hbm, 351, rfl⟩
abbrev main_v201 : Ref sig .tc := ⟨.hbm, 352, rfl⟩
abbrev main_v202 : Ref sig .tc := ⟨.hbm, 353, rfl⟩
abbrev main_v203 : Ref sig .tc := ⟨.hbm, 354, rfl⟩
abbrev main_c_39 : Ref sig .tc := ⟨.hbm, 355, rfl⟩
abbrev main_v204 : Ref sig .tc := ⟨.hbm, 356, rfl⟩
abbrev main_v205 : Ref sig .tc := ⟨.hbm, 357, rfl⟩
abbrev main_c_40 : Ref sig .tc := ⟨.hbm, 358, rfl⟩
abbrev main_v206 : Ref sig .tc := ⟨.hbm, 359, rfl⟩
abbrev main_v207 : Ref sig .tc := ⟨.hbm, 360, rfl⟩
abbrev main_v208 : Ref sig .tc := ⟨.hbm, 361, rfl⟩
abbrev main_v209 : Ref sig .tc := ⟨.hbm, 362, rfl⟩
abbrev main_v210 : Ref sig .tc := ⟨.hbm, 363, rfl⟩
abbrev main_v211 : Ref sig .tc := ⟨.hbm, 364, rfl⟩
abbrev main_v212 : Ref sig .tc := ⟨.hbm, 365, rfl⟩
abbrev main_v213 : Ref sig .tc := ⟨.hbm, 366, rfl⟩
abbrev main_cst_41 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_cst_42 : Ref sig .tc := ⟨.hbm, 371, rfl⟩
abbrev main_v217 : Ref sig .tc := ⟨.hbm, 372, rfl⟩
abbrev main_v218 : Ref sig .tc := ⟨.hbm, 373, rfl⟩
abbrev main_cst_43 : Ref sig .tc := ⟨.hbm, 374, rfl⟩
abbrev main_v219 : Ref sig .tc := ⟨.hbm, 375, rfl⟩
abbrev main_v220 : Ref sig .tc := ⟨.hbm, 376, rfl⟩
abbrev main_v221 : Ref sig .tc := ⟨.hbm, 377, rfl⟩
abbrev main_c_44 : Ref sig .tc := ⟨.hbm, 378, rfl⟩
abbrev main_v222 : Ref sig .tc := ⟨.hbm, 379, rfl⟩
abbrev main_v223 : Ref sig .tc := ⟨.hbm, 380, rfl⟩
abbrev main_c_45 : Ref sig .tc := ⟨.hbm, 381, rfl⟩
abbrev main_v224 : Ref sig .tc := ⟨.hbm, 382, rfl⟩
abbrev main_v225 : Ref sig .tc := ⟨.hbm, 383, rfl⟩
abbrev main_v226 : Ref sig .tc := ⟨.hbm, 384, rfl⟩
abbrev main_v227 : Ref sig .tc := ⟨.hbm, 385, rfl⟩
abbrev main_v228 : Ref sig .tc := ⟨.hbm, 386, rfl⟩
abbrev main_v229 : Ref sig .tc := ⟨.hbm, 387, rfl⟩
abbrev main_v230 : Ref sig .tc := ⟨.hbm, 388, rfl⟩
abbrev main_v231 : Ref sig .tc := ⟨.hbm, 389, rfl⟩
abbrev main_cst_46 : Ref sig .tc := ⟨.hbm, 390, rfl⟩
abbrev main_v232 : Ref sig .tc := ⟨.hbm, 391, rfl⟩
abbrev main_v233 : Ref sig .tc := ⟨.hbm, 392, rfl⟩
abbrev main_v234 : Ref sig .tc := ⟨.hbm, 393, rfl⟩
abbrev main_cst_47 : Ref sig .tc := ⟨.hbm, 394, rfl⟩
abbrev main_v235 : Ref sig .tc := ⟨.hbm, 395, rfl⟩
abbrev main_v236 : Ref sig .tc := ⟨.hbm, 396, rfl⟩
abbrev main_cst_48 : Ref sig .tc := ⟨.hbm, 397, rfl⟩
abbrev main_v237 : Ref sig .tc := ⟨.hbm, 398, rfl⟩
abbrev main_v238 : Ref sig .tc := ⟨.hbm, 399, rfl⟩
abbrev main_v239 : Ref sig .tc := ⟨.hbm, 400, rfl⟩
abbrev main_c_49 : Ref sig .tc := ⟨.hbm, 401, rfl⟩
abbrev main_v240 : Ref sig .tc := ⟨.hbm, 402, rfl⟩
abbrev main_v241 : Ref sig .tc := ⟨.hbm, 403, rfl⟩
abbrev main_c_50 : Ref sig .tc := ⟨.hbm, 404, rfl⟩
abbrev main_v242 : Ref sig .tc := ⟨.hbm, 405, rfl⟩
abbrev main_v243 : Ref sig .tc := ⟨.hbm, 406, rfl⟩
abbrev main_v244 : Ref sig .tc := ⟨.hbm, 407, rfl⟩
abbrev main_v245 : Ref sig .tc := ⟨.hbm, 408, rfl⟩
abbrev main_v246 : Ref sig .tc := ⟨.hbm, 409, rfl⟩
abbrev main_v247 : Ref sig .tc := ⟨.hbm, 410, rfl⟩
abbrev main_v248 : Ref sig .tc := ⟨.hbm, 411, rfl⟩
abbrev main_v249 : Ref sig .tc := ⟨.hbm, 412, rfl⟩
abbrev main_cst_51 : Ref sig .tc := ⟨.hbm, 413, rfl⟩
abbrev main_v250 : Ref sig .tc := ⟨.hbm, 414, rfl⟩
abbrev main_v251 : Ref sig .tc := ⟨.hbm, 415, rfl⟩
abbrev main_v252 : Ref sig .tc := ⟨.hbm, 416, rfl⟩
abbrev main_cst_52 : Ref sig .tc := ⟨.hbm, 417, rfl⟩
abbrev main_v253 : Ref sig .tc := ⟨.hbm, 418, rfl⟩
abbrev main_v254 : Ref sig .tc := ⟨.hbm, 419, rfl⟩
abbrev main_cst_53 : Ref sig .tc := ⟨.hbm, 420, rfl⟩
abbrev main_v255 : Ref sig .tc := ⟨.hbm, 421, rfl⟩
abbrev main_v256 : Ref sig .tc := ⟨.hbm, 422, rfl⟩
abbrev main_v257 : Ref sig .tc := ⟨.hbm, 423, rfl⟩
abbrev main_c_54 : Ref sig .tc := ⟨.hbm, 424, rfl⟩
abbrev main_v258 : Ref sig .tc := ⟨.hbm, 425, rfl⟩
abbrev main_v259 : Ref sig .tc := ⟨.hbm, 426, rfl⟩
abbrev main_c_55 : Ref sig .tc := ⟨.hbm, 427, rfl⟩
abbrev main_v260 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_v267 : Ref sig .tc := ⟨.hbm, 435, rfl⟩
abbrev main_cst_56 : Ref sig .tc := ⟨.hbm, 436, rfl⟩
abbrev main_v268 : Ref sig .tc := ⟨.hbm, 437, rfl⟩
abbrev main_v269 : Ref sig .tc := ⟨.hbm, 438, rfl⟩
abbrev main_v270 : Ref sig .tc := ⟨.hbm, 439, rfl⟩
abbrev main_cst_57 : Ref sig .tc := ⟨.hbm, 440, rfl⟩
abbrev main_v271 : Ref sig .tc := ⟨.hbm, 441, rfl⟩
abbrev main_v272 : Ref sig .tc := ⟨.hbm, 442, rfl⟩
abbrev main_cst_58 : Ref sig .tc := ⟨.hbm, 443, rfl⟩
abbrev main_v273 : Ref sig .tc := ⟨.hbm, 444, rfl⟩
abbrev main_v274 : Ref sig .tc := ⟨.hbm, 445, rfl⟩
abbrev main_v275 : Ref sig .tc := ⟨.hbm, 446, rfl⟩
abbrev main_c_59 : Ref sig .tc := ⟨.hbm, 447, rfl⟩
abbrev main_v276 : Ref sig .tc := ⟨.hbm, 448, rfl⟩
abbrev main_v277 : Ref sig .tc := ⟨.hbm, 449, rfl⟩
abbrev main_c_60 : Ref sig .tc := ⟨.hbm, 450, rfl⟩
abbrev main_v278 : Ref sig .tc := ⟨.hbm, 451, rfl⟩
abbrev main_v279 : Ref sig .tc := ⟨.hbm, 452, rfl⟩
abbrev main_v280 : Ref sig .tc := ⟨.hbm, 453, rfl⟩
abbrev main_v281 : Ref sig .tc := ⟨.hbm, 454, rfl⟩
abbrev main_v282 : Ref sig .tc := ⟨.hbm, 455, rfl⟩
abbrev main_v283 : Ref sig .tc := ⟨.hbm, 456, rfl⟩
abbrev main_v284 : Ref sig .tc := ⟨.hbm, 457, rfl⟩
abbrev main_v285 : Ref sig .tc := ⟨.hbm, 458, rfl⟩
abbrev main_cst_61 : Ref sig .tc := ⟨.hbm, 459, rfl⟩
abbrev main_v286 : Ref sig .tc := ⟨.hbm, 460, rfl⟩
abbrev main_v287 : Ref sig .tc := ⟨.hbm, 461, rfl⟩
abbrev main_v288 : Ref sig .tc := ⟨.hbm, 462, rfl⟩
abbrev main_cst_62 : Ref sig .tc := ⟨.hbm, 463, rfl⟩
abbrev main_v289 : Ref sig .tc := ⟨.hbm, 464, rfl⟩
abbrev main_v290 : Ref sig .tc := ⟨.hbm, 465, rfl⟩
abbrev main_cst_63 : Ref sig .tc := ⟨.hbm, 466, rfl⟩
abbrev main_v291 : Ref sig .tc := ⟨.hbm, 467, rfl⟩
abbrev main_v292 : Ref sig .tc := ⟨.hbm, 468, rfl⟩
abbrev main_v293 : Ref sig .tc := ⟨.hbm, 469, rfl⟩
abbrev main_c_64 : Ref sig .tc := ⟨.hbm, 470, rfl⟩
abbrev main_v294 : Ref sig .tc := ⟨.hbm, 471, rfl⟩
abbrev main_v295 : Ref sig .tc := ⟨.hbm, 472, rfl⟩
abbrev main_c_65 : Ref sig .tc := ⟨.hbm, 473, rfl⟩
abbrev main_v296 : Ref sig .tc := ⟨.hbm, 474, rfl⟩
abbrev main_v297 : Ref sig .tc := ⟨.hbm, 475, rfl⟩
abbrev main_v298 : Ref sig .tc := ⟨.hbm, 476, rfl⟩
abbrev main_v299 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_cst_66 : Ref sig .tc := ⟨.hbm, 482, rfl⟩
abbrev main_v304 : Ref sig .tc := ⟨.hbm, 483, rfl⟩
abbrev main_v305 : Ref sig .tc := ⟨.hbm, 484, rfl⟩
abbrev main_v306 : Ref sig .tc := ⟨.hbm, 485, rfl⟩
abbrev main_cst_67 : Ref sig .tc := ⟨.hbm, 486, rfl⟩
abbrev main_v307 : Ref sig .tc := ⟨.hbm, 487, rfl⟩
abbrev main_v308 : Ref sig .tc := ⟨.hbm, 488, rfl⟩
abbrev main_cst_68 : Ref sig .tc := ⟨.hbm, 489, rfl⟩
abbrev main_v309 : Ref sig .tc := ⟨.hbm, 490, rfl⟩
abbrev main_v310 : Ref sig .tc := ⟨.hbm, 491, rfl⟩
abbrev main_v311 : Ref sig .tc := ⟨.hbm, 492, rfl⟩
abbrev main_c_69 : Ref sig .tc := ⟨.hbm, 493, rfl⟩
abbrev main_v312 : Ref sig .tc := ⟨.hbm, 494, rfl⟩
abbrev main_v313 : Ref sig .tc := ⟨.hbm, 495, rfl⟩
abbrev main_c_70 : Ref sig .tc := ⟨.hbm, 496, rfl⟩
abbrev main_v314 : Ref sig .tc := ⟨.hbm, 497, rfl⟩
abbrev main_v315 : Ref sig .tc := ⟨.hbm, 498, rfl⟩
abbrev main_v316 : Ref sig .tc := ⟨.hbm, 499, rfl⟩
abbrev main_v317 : Ref sig .tc := ⟨.hbm, 500, rfl⟩
abbrev main_v318 : Ref sig .tc := ⟨.hbm, 501, rfl⟩
abbrev main_v319 : Ref sig .tc := ⟨.hbm, 502, rfl⟩
abbrev main_v320 : Ref sig .tc := ⟨.hbm, 503, rfl⟩
abbrev main_v321 : Ref sig .tc := ⟨.hbm, 504, rfl⟩
abbrev main_cst_71 : Ref sig .tc := ⟨.hbm, 505, rfl⟩
abbrev main_v322 : Ref sig .tc := ⟨.hbm, 506, rfl⟩
abbrev main_v323 : Ref sig .tc := ⟨.hbm, 507, rfl⟩
abbrev main_v324 : Ref sig .tc := ⟨.hbm, 508, rfl⟩
abbrev main_cst_72 : Ref sig .tc := ⟨.hbm, 509, rfl⟩
abbrev main_v325 : Ref sig .tc := ⟨.hbm, 510, rfl⟩
abbrev main_v326 : Ref sig .tc := ⟨.hbm, 511, rfl⟩
abbrev main_cst_73 : Ref sig .tc := ⟨.hbm, 512, rfl⟩
abbrev main_v327 : Ref sig .tc := ⟨.hbm, 513, rfl⟩
abbrev main_v328 : Ref sig .tc := ⟨.hbm, 514, rfl⟩
abbrev main_v329 : Ref sig .tc := ⟨.hbm, 515, rfl⟩
abbrev main_c_74 : Ref sig .tc := ⟨.hbm, 516, rfl⟩
abbrev main_v330 : Ref sig .tc := ⟨.hbm, 517, rfl⟩
abbrev main_v331 : Ref sig .tc := ⟨.hbm, 518, rfl⟩
abbrev main_c_75 : Ref sig .tc := ⟨.hbm, 519, rfl⟩
abbrev main_v332 : Ref sig .tc := ⟨.hbm, 520, rfl⟩
abbrev main_v333 : Ref sig .tc := ⟨.hbm, 521, rfl⟩
abbrev main_v334 : Ref sig .tc := ⟨.hbm, 522, rfl⟩
abbrev main_v335 : Ref sig .tc := ⟨.hbm, 523, rfl⟩
abbrev main_v336 : Ref sig .tc := ⟨.hbm, 524, rfl⟩
abbrev main_v337 : Ref sig .tc := ⟨.hbm, 525, rfl⟩
abbrev main_v338 : Ref sig .tc := ⟨.hbm, 526, rfl⟩
abbrev main_v339 : Ref sig .tc := ⟨.hbm, 527, rfl⟩
abbrev main_cst_76 : Ref sig .tc := ⟨.hbm, 528, rfl⟩
abbrev main_v340 : Ref sig .tc := ⟨.hbm, 529, rfl⟩
abbrev main_v341 : Ref sig .tc := ⟨.hbm, 530, rfl⟩
abbrev main_v342 : Ref sig .tc := ⟨.hbm, 531, rfl⟩
abbrev main_cst_77 : Ref sig .tc := ⟨.hbm, 532, rfl⟩
abbrev main_v343 : Ref sig .tc := ⟨.hbm, 533, rfl⟩
abbrev main_v344 : Ref sig .tc := ⟨.hbm, 534, rfl⟩
abbrev main_cst_78 : Ref sig .tc := ⟨.hbm, 535, rfl⟩
abbrev main_v345 : Ref sig .tc := ⟨.hbm, 536, rfl⟩
abbrev main_v346 : Ref sig .tc := ⟨.hbm, 537, rfl⟩
abbrev main_v347 : Ref sig .tc := ⟨.hbm, 538, rfl⟩
abbrev main_c_79 : Ref sig .tc := ⟨.hbm, 539, rfl⟩
abbrev main_v348 : Ref sig .tc := ⟨.hbm, 540, rfl⟩
abbrev main_v349 : Ref sig .tc := ⟨.hbm, 541, rfl⟩
abbrev main_c_80 : Ref sig .tc := ⟨.hbm, 542, rfl⟩
abbrev main_v350 : Ref sig .tc := ⟨.hbm, 543, rfl⟩
abbrev main_v351 : Ref sig .tc := ⟨.hbm, 544, rfl⟩
abbrev main_v352 : Ref sig .tc := ⟨.hbm, 545, rfl⟩
abbrev main_v353 : Ref sig .tc := ⟨.hbm, 546, rfl⟩
abbrev main_v354 : Ref sig .tc := ⟨.hbm, 547, rfl⟩
abbrev main_v355 : Ref sig .tc := ⟨.hbm, 548, rfl⟩
abbrev main_v356 : Ref sig .tc := ⟨.hbm, 549, rfl⟩
abbrev main_v357 : Ref sig .tc := ⟨.hbm, 550, rfl⟩
abbrev main_cst_81 : Ref sig .tc := ⟨.hbm, 551, rfl⟩
abbrev main_v358 : Ref sig .tc := ⟨.hbm, 552, rfl⟩
abbrev main_v359 : Ref sig .tc := ⟨.hbm, 553, rfl⟩
abbrev main_v360 : Ref sig .tc := ⟨.hbm, 554, rfl⟩
abbrev main_cst_82 : Ref sig .tc := ⟨.hbm, 555, rfl⟩
abbrev main_v361 : Ref sig .tc := ⟨.hbm, 556, rfl⟩
abbrev main_v362 : Ref sig .tc := ⟨.hbm, 557, rfl⟩
abbrev main_cst_83 : Ref sig .tc := ⟨.hbm, 558, rfl⟩
abbrev main_v363 : Ref sig .tc := ⟨.hbm, 559, rfl⟩
abbrev main_v364 : Ref sig .tc := ⟨.hbm, 560, rfl⟩
abbrev main_v365 : Ref sig .tc := ⟨.hbm, 561, rfl⟩
abbrev main_v366 : Ref sig .tc := ⟨.hbm, 562, rfl⟩
abbrev main_v367 : Ref sig .tc := ⟨.hbm, 563, rfl⟩
abbrev main_v368 : Ref sig .tc := ⟨.hbm, 564, rfl⟩
abbrev main_v369 : Ref sig .tc := ⟨.hbm, 565, rfl⟩
abbrev main_call9_cst : Ref sig .tc := ⟨.hbm, 566, rfl⟩
abbrev main_call9_v0 : Ref sig .tc := ⟨.hbm, 567, rfl⟩
abbrev main_call9_cst_0 : Ref sig .tc := ⟨.hbm, 568, rfl⟩
abbrev main_call9_v1 : Ref sig .tc := ⟨.hbm, 569, rfl⟩
abbrev main_call9_v2 : Ref sig .tc := ⟨.hbm, 570, rfl⟩
abbrev main_call9_v3 : Ref sig .tc := ⟨.hbm, 571, rfl⟩
abbrev main_call9_v4 : Ref sig .tc := ⟨.hbm, 572, rfl⟩
abbrev main_call9_v5 : Ref sig .tc := ⟨.hbm, 573, rfl⟩
abbrev main_call9_v6 : Ref sig .tc := ⟨.hbm, 574, rfl⟩
abbrev main_call9_cst_1 : Ref sig .tc := ⟨.hbm, 575, rfl⟩
abbrev main_call9_v7 : Ref sig .tc := ⟨.hbm, 576, rfl⟩
abbrev main_call9_v8 : Ref sig .tc := ⟨.hbm, 577, rfl⟩
abbrev main_call9_v9 : Ref sig .tc := ⟨.hbm, 578, rfl⟩
abbrev main_call9_v10 : Ref sig .tc := ⟨.hbm, 579, rfl⟩
abbrev main_v370 : Ref sig .tc := ⟨.hbm, 580, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  reducesTo_S50000x64_S50000_d1 : S50000x64.ReducesTo [1] S50000
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
import proofs.«173378_j55121610277361_1_alg».proof.ReferenceIdeal
import Idealize.ShloMosaic.PureOps.Ideal

noncomputable section

namespace Cert.Spec

open Cert.ReferenceIdeal Idealize.ShloMosaic Idealize.ShloMosaic.TcCoe

variable {F : FTy → Type} [FloatOps F] [hR : Cert.ReferenceIdeal.Facts]
open Cert.ReferenceIdeal.Facts₀ Cert.ReferenceIdeal.Facts

abbrev A (s : Shape) : Type := (⟨s, .f32⟩ : BufTy).Contents (Elt F)
abbrev I (s : Shape) : Type := (⟨s, .i32⟩ : BufTy).Contents (Elt F)

def nodes : I (F := F) S50000 := iotaInDim S50000 32 0

def srcOf (ei : I (F := F) S2x800000) : I (F := F) S850000 :=
  concatenate S850000 0 [⟨S800000, fun i => shapeCast S800000 (extractStridedSlice S1x800000 ![0, 0] ei slices_S2x800000_S1x800000_0_0) shapeCasts_S1x800000_S800000 i⟩, ⟨S50000, nodes⟩] concatenates_S800000_S50000_S850000_d0
def dstOf (ei : I (F := F) S2x800000) : I (F := F) S850000 :=
  concatenate S850000 0 [⟨S800000, fun i => shapeCast S800000 (extractStridedSlice S1x800000 ![1, 0] ei slices_S2x800000_S1x800000_1_0) shapeCasts_S1x800000_S800000 i⟩, ⟨S50000, nodes⟩] concatenates_S800000_S50000_S850000_d0

def wrapCol (i : I (F := F) S850000) : I (F := F) S850000x1 :=
  broadcastInDim S850000x1 ![0] bcast_S850000_S850000x1_0
    (select (cmpi .slt i (broadcastInDim S850000 ![] bcast_S_S850000 (constantI S_ 32 0#32)))
      (addi i (broadcastInDim S850000 ![] bcast_S_S850000 (constantI S_ 32 50000#32))) i)

def deg (dst : I (F := F) S850000) : A (F := F) S50000 :=
  Host.scatterAdd scatter_S50000_S850000x1_S850000_n_0_0_1
    (broadcastInDim S50000 ![] bcast_S_S50000 (constant S_ .f32 0x00000000#32))
    (broadcastInDim S850000x1 ![0] bcast_S850000_S850000x1_0 dst)
    (broadcastInDim S850000 ![] bcast_S_S850000 (constant S_ .f32 0x3F800000#32))

def dinv (dst : I (F := F) S850000) : A (F := F) S50000 :=
  select (cmpf .ogt (deg dst) (broadcastInDim S50000 ![] bcast_S_S50000 (constant S_ .f32 0x00000000#32)))
    (Host.rsqrt (deg dst))
    (broadcastInDim S50000 ![] bcast_S_S50000 (id (constant S_ .f32 0x00000000#32)))

def edgeWOf (src dst : I (F := F) S850000) : A (F := F) S850000 :=
  mulf (Host.gather gather_S50000_S850000x1_S850000_n_0_n_n_0_1_1 (dinv dst) (wrapCol src))
       (Host.gather gather_S50000_S850000x1_S850000_n_0_n_n_0_1_1 (dinv dst) (wrapCol dst))

def prop (src dst : I (F := F) S850000) (w : A (F := F) S850000) (h : A (F := F) S50000x64) : A (F := F) S50000x64 :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf (Host.gather gather_S50000x64_S850000x1_S850000x64_1_0_n_n_0_1_164 h (wrapCol src))
      (broadcastInDim S850000x64 ![0, 1] bcast_S850000x1_S850000x64_0_1 (broadcastInDim S850000x1 ![0] bcast_S850000_S850000x1_0 w)))

def addBias (p : A (F := F) S50000x64) (b : A (F := F) S64) : A (F := F) S50000x64 :=
  addf p (broadcastInDim S50000x64 ![0, 1] bcast_S1x64_S50000x64_0_1 (broadcastInDim S1x64 ![1] bcast_S64_S1x64_1 b))

def wx0 (Wx : A (F := F) S2x64x64) : A (F := F) S64x64 :=
  fun i => shapeCast S64x64 (extractStridedSlice S1x64x64 ![0, 0, 0] Wx slices_S2x64x64_S1x64x64_0_0_0) shapeCasts_S1x64x64_S64x64 i
def wx1 (Wx : A (F := F) S2x64x64) : A (F := F) S64x64 :=
  fun i => shapeCast S64x64 (extractStridedSlice S1x64x64 ![1, 0, 0] Wx slices_S2x64x64_S1x64x64_1_0_0) shapeCasts_S1x64x64_S64x64 i
def bx0 (bx : A (F := F) S2x64) : A (F := F) S64 :=
  fun i => shapeCast S64 (extractStridedSlice S1x64 ![0, 0] bx slices_S2x64_S1x64_0_0) shapeCasts_S1x64_S64 i
def bx1 (bx : A (F := F) S2x64) : A (F := F) S64 :=
  fun i => shapeCast S64 (extractStridedSlice S1x64 ![1, 0] bx slices_S2x64_S1x64_1_0) shapeCasts_S1x64_S64 i

end Cert.Spec

end
-- ==== Proof.Math.lean ====
import Idealize.ShloMosaic.PureOps.Ideal
import Idealize.ShloMosaic.Lib.ValueIdx

noncomputable section

namespace Cert.Math

open Idealize.ShloMosaic Idealize.ShloMosaic.ValueIdx
open scoped BigOperators

abbrev Mat (r c : Nat) : Type := (⟨2, ![r, c]⟩ : Shape).Idx → EReal
abbrev Row (c : Nat) : Type := (⟨1, ![c]⟩ : Shape).Idx → EReal

def AllReal {s : Shape} (a : s.Idx → EReal) : Prop := ∀ i, ∃ r : ℝ, a i = (r : EReal)

def cN : EReal := Ideal.ofBits .f32 0x47435000#32
def cEps : EReal := Ideal.ofBits .f32 0x3727C5AC#32
def c09 : EReal := Ideal.ofBits .f32 0x3F666666#32
def c01 : EReal := Ideal.ofBits .f32 0x3DCCCCCD#32
def cNegInf : EReal := Ideal.ofBits .f32 0xFF800000#32

def mm {K : Nat} (x : Mat 50000 K) (W : Mat K 64) : Mat 50000 64 :=
  fun i => ∑ k : Fin K, x (ix2 (i 0) k) * W (ix2 k (i 1))

def row (v : Row 64) : Mat 1 64 := fun j => v (ix1 (j 1))

def colSum (z : Mat 50000 64) : Mat 1 64 := fun j => ∑ r : Fin 50000, z (ix2 r (j 1))
def colSumSq (z : Mat 50000 64) : Mat 1 64 := fun j => ∑ r : Fin 50000, z (ix2 r (j 1)) * z (ix2 r (j 1))

def meanOf (s : Mat 1 64) : Mat 1 64 := fun j => Ideal.div (s j) cN
def varOf (s q : Mat 1 64) : Mat 1 64 := fun j => Ideal.div (q j) cN - Ideal.div (s j) cN * Ideal.div (s j) cN

def bnRelu (z : Mat 50000 64) (mean var g b : Mat 1 64) : Mat 50000 64 :=
  fun i => max (g (ix2 0 (i 1)) * (z i - mean (ix2 0 (i 1))) * Ideal.rsqrt (var (ix2 0 (i 1)) + cEps) + b (ix2 0 (i 1))) 0

def bnK (z : Mat 50000 64) (g b : Row 64) : Mat 50000 64 :=
  bnRelu z (meanOf (colSum z)) (varOf (colSum z) (colSumSq z)) (row g) (row b)

def meanR (z : Mat 50000 64) : Row 64 := fun j => Ideal.div (∑ r : Fin 50000, z (ix2 r (j 0))) cN
def varR (z : Mat 50000 64) : Row 64 :=
  fun j => Ideal.div (∑ r : Fin 50000, (z (ix2 r (j 0)) - meanR z j) * (z (ix2 r (j 0)) - meanR z j)) cN

def bnR (z : Mat 50000 64) (g b : Row 64) : Mat 50000 64 :=
  fun i => max (g (ix1 (i 1)) * (z i - meanR z (ix1 (i 1))) * Ideal.rsqrt (varR z (ix1 (i 1)) + cEps) + b (ix1 (i 1))) 0

def blend (p h0 : Mat 50000 64) : Mat 50000 64 := fun i => c09 * p i + c01 * h0 i

def logits (h : Mat 50000 64) (W : Mat 64 64) (b : Mat 1 64) : Mat 50000 64 := fun i => mm h W i + b (ix2 0 (i 1))

def rowMax (l : Mat 50000 64) (r : Fin 50000) : EReal :=
  (Finset.univ : Finset (Fin 64)).fold max cNegInf (fun k => l (ix2 r k))

def logSoftmax (l : Mat 50000 64) : Mat 50000 64 := fun i =>
  (l i - rowMax l (i 0)) - Ideal.log (∑ k : Fin 64, Ideal.exp (l (ix2 (i 0) k) - rowMax l (i 0)))

def fcLS (h : Mat 50000 64) (W : Mat 64 64) (b : Mat 1 64) : Mat 50000 64 := logSoftmax (logits h W b)

end Cert.Math

end
-- ==== Proof.Results.lean ====
import proofs.«173378_j55121610277361_1_alg».proof.Proof.Spec
import proofs.«173378_j55121610277361_1_alg».proof.Proof.Math

noncomputable section

namespace Cert.Results

open Cert.ReferenceIdeal Idealize.ShloMosaic Cert.Math

variable [hR : Cert.ReferenceIdeal.Facts]

abbrev FA (s : Shape) : Type := Cert.Spec.A (F := Ideal) s
abbrev IA (s : Shape) : Type := Cert.Spec.I (F := Ideal) s

def layerK {K : Nat} (src dst : IA S850000) (w : FA S850000) (h : Mat 50000 K) (W : Mat K 64) (b g be : Row 64) : Mat 50000 64 :=
  Math.bnK (Cert.Spec.addBias (Cert.Spec.prop src dst w (Math.mm h W)) b) g be

def layerR {K : Nat} (src dst : IA S850000) (w : FA S850000) (h : Mat 50000 K) (W : Mat K 64) (b g be : Row 64) : Mat 50000 64 :=
  Math.bnR (Cert.Spec.addBias (Cert.Spec.prop src dst w (Math.mm h W)) b) g be

def appnp (src dst : IA S850000) (w : FA S850000) (h0 : Mat 50000 64) : Nat → Mat 50000 64
  | 0 => h0
  | n + 1 => Math.blend (Cert.Spec.prop src dst w (appnp src dst w h0 n)) h0

def kerResult (x : FA S50000x128) (ei : IA S2x800000) (W1 : FA S128x64) (b1 : FA S64) (W2 : FA S64x64) (b2 : FA S64)
    (Wx : FA S2x64x64) (bx : FA S2x64) (g1 be1 g2 be2 g3 be3 : FA S64) (Wfc : FA S64x64) (bfc : FA S64) : Mat 50000 64 :=
  let src := Cert.Spec.srcOf ei
  let dst := Cert.Spec.dstOf ei
  let w := Cert.Spec.edgeWOf src dst
  let h1 := layerK src dst w x W1 b1 g1 be1
  let h2 := layerK src dst w h1 W2 b2 g2 be2
  let h3 := layerK src dst w h2 (Cert.Spec.wx0 Wx) (Cert.Spec.bx0 bx) g3 be3
  let h4 := layerK src dst w h3 (Cert.Spec.wx1 Wx) (Cert.Spec.bx1 bx) g3 be3
  Math.fcLS (appnp src dst w h4 10) Wfc (Math.row bfc)

def refResult (x : FA S50000x128) (ei : IA S2x800000) (W1 : FA S128x64) (b1 : FA S64) (W2 : FA S64x64) (b2 : FA S64)
    (Wx : FA S2x64x64) (bx : FA S2x64) (g1 be1 g2 be2 g3 be3 : FA S64) (Wfc : FA S64x64) (bfc : FA S64) : Mat 50000 64 :=
  let src := Cert.Spec.srcOf ei
  let dst := Cert.Spec.dstOf ei
  let w := Cert.Spec.edgeWOf src dst
  let h1 := layerR src dst w x W1 b1 g1 be1
  let h2 := layerR src dst w h1 W2 b2 g2 be2
  let h3 := layerR src dst w h2 (Cert.Spec.wx0 Wx) (Cert.Spec.bx0 bx) g3 be3
  let h4 := layerR src dst w h3 (Cert.Spec.wx1 Wx) (Cert.Spec.bx1 bx) g3 be3
  Math.fcLS (appnp src dst w h4 10) Wfc (Math.row bfc)

end Cert.Results

end
-- ==== Proof.KF0.lean ====
import proofs.«173378_j55121610277361_1_alg».proof.Proof.Gen.KernelIdeal.Frame
import proofs.«173378_j55121610277361_1_alg».proof.Proof.Gen.ReferenceIdeal
import proofs.«173378_j55121610277361_1_alg».proof.Proof.Results

noncomputable section

namespace Cert.KernelIdeal.KFold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

abbrev g0_W : List (Ref sig .tc) := [main_v0, main_v1, main_v2, main_v3, main_v4, main_v5, main_v6, main_cst, main_v7, main_cst_0, main_v8, main_v9, main_v10, main_cst_1, main_v11, main_v12, main_v13, main_cst_2, main_call0_v0, main_call0_v1, main_v14, main_c, main_v15, main_v16, main_c_3, main_v17, main_v18, main_v19, main_v20, main_v21, main_c_4, main_v22, main_v23, main_c_5, main_v24, main_v25, main_v26, main_v27, main_v28, main_v29]

section Typed
variable {Tx Ty Ta Tb Tp : BufTy}

-- Once the carried types are substituted for the buffers' own, a typed operation's result is its function of the operands' contents.
theorem tunary_result_heq (x : TRef sig Tx) (y : TRef sig Ty) (f : Tx.Contents (Elt Ideal) → Ty.Contents (Elt Ideal))
    (F : Valuation τ sig (Elt Ideal)) (X : Tx.Contents (Elt Ideal)) (hx : HEq (F (Proc.devRef .tc x.ref)) X) :
    HEq ((TRef.unary (τ := τ) x y f).result F (Proc.devRef .tc y.ref)) (f X) := by
  obtain ⟨xr, rfl, _, _⟩ := x
  obtain ⟨yr, rfl, _, _⟩ := y
  obtain rfl := eq_of_heq hx
  exact heq_of_eq (unary_result xr yr _ _ _ F)

theorem tternary_result_heq (p : TRef sig Tp) (a : TRef sig Ta) (b : TRef sig Tb) (y : TRef sig Ty)
    (f : Tp.Contents (Elt Ideal) → Ta.Contents (Elt Ideal) → Tb.Contents (Elt Ideal) → Ty.Contents (Elt Ideal))
    (F : Valuation τ sig (Elt Ideal)) (P : Tp.Contents (Elt Ideal)) (A : Ta.Contents (Elt Ideal)) (B : Tb.Contents (Elt Ideal))
    (hp : HEq (F (Proc.devRef .tc p.ref)) P) (ha : HEq (F (Proc.devRef .tc a.ref)) A) (hb : HEq (F (Proc.devRef .tc b.ref)) B) :
    HEq ((TRef.ternary (τ := τ) p a b y f).result F (Proc.devRef .tc y.ref)) (f P A B) := by
  obtain ⟨pr, rfl, _, _⟩ := p
  obtain ⟨ar, rfl, _, _⟩ := a
  obtain ⟨br, rfl, _, _⟩ := b
  obtain ⟨yr, rfl, _, _⟩ := y
  obtain rfl := eq_of_heq hp
  obtain rfl := eq_of_heq ha
  obtain rfl := eq_of_heq hb
  exact heq_of_eq (ternary_result pr ar br yr _ _ _ _ _ F)

end Typed

theorem g0_src : W3 m ρ c (Proc.devRef .tc main_v3) = Cert.Spec.srcOf (m ((c.tc : Thread nD τ).loc main_arg1)) := by
  show after hostOps0_2 (after hostOps0_1 (after hostOps0 (W0 m ρ c))) _ = _
  after_results_simp
  rfl

theorem g0_dst : W3 m ρ c (Proc.devRef .tc main_v6) = Cert.Spec.dstOf (m ((c.tc : Thread nD τ).loc main_arg1)) := by
  show after hostOps0_2 (after hostOps0_1 (after hostOps0 (W0 m ρ c))) _ = _
  after_results_simp
  rfl

-- After the first stretch: where the degree is positive, its inverse square root, and the zero the selection falls back to.
theorem g0_s1 : W1 m ρ c (Proc.devRef .tc main_v12) = cmpf .ogt (Cert.Spec.deg (Cert.Spec.dstOf (m ((c.tc : Thread nD τ).loc main_arg1)))) (broadcastInDim S50000 ![] bcast_S_S50000 (constant S_ .f32 0x00000000#32))
    ∧ W1 m ρ c (Proc.devRef .tc main_v13) = Host.rsqrt (Cert.Spec.deg (Cert.Spec.dstOf (m ((c.tc : Thread nD τ).loc main_arg1))))
    ∧ W1 m ρ c (Proc.devRef .tc main_cst_2) = constant (F := Ideal) S_ .f32 0x00000000#32 := by
  refine ⟨?_, ?_, ?_⟩ <;> (show after hostOps0 (W0 m ρ c) _ = _; after_results_simp) <;> rfl

-- Before the last stretch: the two edge lists, and 1/sqrt(degree) where the degree is positive, 0 elsewhere.
theorem g0_mid : W2 m ρ c (Proc.devRef .tc main_v3) = Cert.Spec.srcOf (m ((c.tc : Thread nD τ).loc main_arg1))
    ∧ W2 m ρ c (Proc.devRef .tc main_v6) = Cert.Spec.dstOf (m ((c.tc : Thread nD τ).loc main_arg1))
    ∧ W2 m ρ c (Proc.devRef .tc main_v14) = Cert.Spec.dinv (Cert.Spec.dstOf (m ((c.tc : Thread nD τ).loc main_arg1))) := by
  refine ⟨?_, ?_, ?_⟩
  iterate 2 (show after hostOps0_1 (after hostOps0 (W0 m ρ c)) _ = _; after_results_simp; rfl)
  obtain ⟨h12, h13, hz⟩ := g0_s1 m ρ c
  show after hostOps0_1 (W1 m ρ c) _ = _
  generalize W1 m ρ c = V at h12 h13 hz ⊢
  simp only [after_cons, after_nil]
  refine eq_of_heq ((tternary_result_heq _ _ _ _ _ _ ?P ?A (broadcastInDim S50000 ![] bcast_S_S50000 (id (constant (F := Ideal) S_ .f32 0x00000000#32))) ?hp ?ha ?hb).trans (heq_of_eq ?e))
  case hp => rw [unary_result_ne, unary_result_ne, h12]; all_goals decide
  case ha => rw [unary_result_ne, unary_result_ne, h13]; all_goals decide
  case hb => exact tunary_result_heq _ _ _ _ _ (tunary_result_heq _ _ _ _ _ (heq_of_eq hz))
  rfl

theorem g0_w : W3 m ρ c (Proc.devRef .tc main_v29) = Cert.Spec.edgeWOf (Cert.Spec.srcOf (m ((c.tc : Thread nD τ).loc main_arg1))) (Cert.Spec.dstOf (m ((c.tc : Thread nD τ).loc main_arg1))) := by
  show after hostOps0_2 (W2 m ρ c) _ = _
  obtain ⟨h3, h6, h14⟩ := g0_mid m ρ c
  generalize W2 m ρ c = V at h3 h6 h14 ⊢
  after_results_simp
  rw [h3, h6, h14]
  rfl

-- Each operation of the three stretches writes one buffer, and the list holds it.
theorem g0_writes : ((hostOps0 : List (HloOp τ sig (Elt Ideal))).Forall fun op => op.writes ⊆ (g0_W.map (Proc.devRef (τ := τ) .tc)).toFinset)
    ∧ ((hostOps0_1 : List (HloOp τ sig (Elt Ideal))).Forall fun op => op.writes ⊆ (g0_W.map (Proc.devRef (τ := τ) .tc)).toFinset)
    ∧ ((hostOps0_2 : List (HloOp τ sig (Elt Ideal))).Forall fun op => op.writes ⊆ (g0_W.map (Proc.devRef (τ := τ) .tc)).toFinset) := by
  simp only [List.Forall, nullary_writes, unary_writes, binary_writes, ternary_writes, reshape_writes, Finset.singleton_subset_iff, List.mem_toFinset]
  repeat' apply And.intro
  all_goals exact List.mem_map_of_mem (by decide)

theorem g0_keep (b : Ref sig .tc) (hb : b ∉ g0_W) : W3 m ρ c (Proc.devRef .tc b) = m ((c.tc : Thread nD τ).loc b) := by
  show after hostOps0_2 (after hostOps0_1 (after hostOps0 (W0 m ρ c))) _ = _
  rw [after_of_writes_sub _ _ g0_writes.2.2 hb, after_of_writes_sub _ _ g0_writes.2.1 hb, after_of_writes_sub _ _ g0_writes.1 hb]

end Cert.KernelIdeal.KFold

end
-- ==== Proof.RegMat.lean ====
import proofs.«173378_j55121610277361_1_alg».proof.Proof.Gen.KernelIdeal.Frame
import proofs.«173378_j55121610277361_1_alg».proof.Proof.Math
import Idealize.ShloMosaic.Lib.StackMember
import Idealize.ShloMosaic.Lib.Pipeline.Value

/-! The four matrix-product launches: each output array ends as the product of the launch's two input arrays. -/

noncomputable section

namespace Cert.KernelIdeal.RegVal

open Cert.KernelIdeal.Gen Idealize.ShloMosaic Idealize.ShloMosaic.TcCoe Cert.Math
open Idealize.ShloMosaic.Pipeline (Window Grid)
open Idealize.ShloMosaic.ValueIdx

namespace MatMul

/-- With a zero accumulator the block product is the plain product of the two blocks. -/
theorem mm_at {M K N : ℕ} (x : FVec Ideal ⟨2, ![M, K]⟩ .f32) (w : FVec Ideal ⟨2, ![K, N]⟩ .f32) (hx hw)
    (y : Shape.Idx ⟨2, ![M, N]⟩) :
    matmul (DotDims.plain M K N) none (truncf .bf16 x hx) (truncf .bf16 w hw) (constant _ .f32 0x00000000#32) y
      = ∑ k : Fin K, x (ix2 (y 0) k) * w (ix2 k (y 1)) := by
  obtain ⟨p, q, rfl⟩ : ∃ p q, y = ix2 p q := ⟨y 0, y 1, eq_ix2 y⟩
  exact (congrFun (matmul_zero_eq_dotGeneral _ none _ _) _).trans (StackMember.dotGeneral_plain_apply none _ _ p q)

theorem pay0 (x w y) : k0_pay1 (F := Ideal) x w y = ∑ k : Fin 128, x (ix2 (y 0) k) * w (ix2 k (y 1)) := mm_at x w _ _ y

theorem pay3 (x w y) : k3_pay1 (F := Ideal) x w y = ∑ k : Fin 64, x (ix2 (y 0) k) * w (ix2 k (y 1)) := by
  unfold k3_pay1; rw [shapeCast_self]; exact mm_at x w _ _ y

theorem pay6 (x w y) : k6_pay1 (F := Ideal) x w y = ∑ k : Fin 64, x (ix2 (y 0) k) * w (ix2 k (y 1)) := by
  unfold k6_pay1; rw [shapeCast_self, shapeCast_self]; exact mm_at x w _ _ y

/-- A block of rows of a product is that block of rows of the left factor times the whole right factor. -/
theorem blk_mm {B K : ℕ} {pay : Vec Ideal ⟨2, ![B, K]⟩ .f32 → Vec Ideal ⟨2, ![K, 64]⟩ .f32 → FVec Ideal ⟨2, ![B, 64]⟩ .f32}
    (hpay : ∀ x w y, pay x w y = ∑ k : Fin K, x (ix2 (y 0) k) * w (ix2 k (y 1))) (X : Mat 50000 K) (W : Mat K 64)
    {ex : Shape.Idx ⟨2, ![B, K]⟩ → Shape.Idx ⟨2, ![50000, K]⟩} {ew : Shape.Idx ⟨2, ![K, 64]⟩ → Shape.Idx ⟨2, ![K, 64]⟩}
    {eo : Shape.Idx ⟨2, ![B, 64]⟩ → Shape.Idx ⟨2, ![50000, 64]⟩} {ix iw io : Fin 2 → ℕ}
    (hx : ∀ z a, (ex z a : ℕ) = ix a * ![B, K] a + z a) (hw : ∀ z a, (ew z a : ℕ) = iw a * ![K, 64] a + z a)
    (ho : ∀ z a, (eo z a : ℕ) = io a * ![B, 64] a + z a)
    (h0 : ix 0 = io 0) (h1 : ix 1 = 0) (h2 : iw 0 = 0) (h3 : iw 1 = io 1) {i0 i1 i2}
    (j : Shape.Idx ⟨2, ![B, 64]⟩) :
    (View.canon [⟨Rect.unit (s := ⟨2, ![B, 64]⟩) ![0, 0] (Shape.size _) i2,
        pay (View.ld (fun z => X (ex z)) (Rect.unit (s := ⟨2, ![B, K]⟩) ![0, 0] (Shape.size _) i0))
          (View.ld (fun z => W (ew z)) (Rect.unit (s := ⟨2, ![K, 64]⟩) ![0, 0] (Shape.size _) i1))⟩] :
      Vec Ideal ⟨2, ![B, 64]⟩ .f32) j = Math.mm X W (eo j) := by
  have z : (![0, 0] : Fin 2 → ℕ) = fun _ => 0 := funext (Fin.forall_fin_two.mpr ⟨rfl, rfl⟩)
  rw [View.canon_unit_zero z, View.ld_unit_zero z, View.ld_unit_zero z, hpay]
  refine Finset.sum_congr rfl fun k _ => congrArg₂ (fun a b => X a * W b)
    (Shape.idx_ext₂ (by rw [hx, ho, h0]; rfl) (by rw [hx, h1, Nat.zero_mul, Nat.zero_add]))
    (Shape.idx_ext₂ (by rw [hw, h2, Nat.zero_mul, Nat.zero_add]) (by rw [hw, ho, h3]; rfl))

/-- An index lies in the block numbered, on each axis, by the quotient of its coordinate by the block's extent. -/
theorem cover {sig : RefSig} {G : Grid} (w : Window sig G) (hf : ∀ t, w.flush t = true)
    (hu : ∀ t a, w.xsize (G.coords t) a = w.size a) (hpos : ∀ a, 0 < w.size a) (x : w.shape.Idx)
    (h : ∃ t, ∀ a, w.index t a = (x a).val / w.size a) :
    ∃ t, w.flush t = true ∧ w.arr.view.emb x ∈ (w.blk t).view.set := by
  obtain ⟨t, h⟩ := h
  refine ⟨t, hf t, ?_⟩
  show w.arr.view.emb x ∈ (w.arr.view.slice (w.rect t)).set
  rw [View.set_slice]
  refine Finset.mem_map_of_mem _ (Rect.mem_set_unit.mpr fun a => ?_)
  rw [h a, hu t a]
  exact ⟨Nat.div_mul_le_self _ _, Nat.lt_div_mul_add (hpos a)⟩

/-- Ten blocks of 5000 rows, each of full width: row r is in block r / 5000. -/
theorem onto_rows {T : Type} {ix : T → Fin 2 → ℕ} (h : ∀ q : Fin 10, ∃ t, ix t 0 = q ∧ ix t 1 = 0) (i : S50000x64.Idx) :
    ∃ t, ∀ a, ix t a = (i a).val / S5000x64.size a := by
  obtain ⟨t, h0, h1⟩ := h ⟨(i 0).val / 5000, Nat.div_lt_of_lt_mul (i 0).isLt⟩
  exact ⟨t, Fin.forall_fin_two.mpr ⟨h0, h1.trans (Nat.div_eq_of_lt (i 1).isLt).symm⟩⟩

/-- Every row block is some grid point's (the four launches share one index function). -/
theorem onto : ∀ q : Fin 10, ∃ t : Fin cfg0.N, win0_2.index t 0 = q ∧ win0_2.index t 1 = 0 := by decide +kernel

end MatMul

open MatMul

variable (V : (c : Dev nD) → (b : Ref sig .tc) → Buf (Elt Ideal) ((c : Thread nD τ).loc b))

theorem reg0 (c : Dev nD) : (dat0 V c).arrAt 2 cfg0.N = Math.mm (K := 128) (V c main_arg0) (V c main_arg2) :=
  (dat0 V c).arrAt_eq_of_cover 2 _
    (fun t _ => (congrArg ((cfg0.win 2).cut (grid0.coords t)) (after0_2 V c t)).trans (funext
      (blk_mm pay0 (V c main_arg0) (V c main_arg2) (win0_0.rect_emb_val t) (win0_1.rect_emb_val t) (win0_2.rect_emb_val t)
        rfl rfl rfl rfl)))
    fun i => cover win0_2 flush0_2 (fun _ _ => rfl) (by decide) i (onto_rows onto i)

theorem reg3 (c : Dev nD) : (dat3 V c).arrAt 2 cfg3.N = Math.mm (K := 64) (V c main_v56) (V c main_arg4) :=
  (dat3 V c).arrAt_eq_of_cover 2 _
    (fun t _ => (congrArg ((cfg3.win 2).cut (grid3.coords t)) (after3_2 V c t)).trans (funext
      (blk_mm pay3 (V c main_v56) (V c main_arg4) (win3_0.rect_emb_val t) (win3_1.rect_emb_val t) (win3_2.rect_emb_val t)
        rfl rfl rfl rfl)))
    fun i => cover win3_2 flush3_2 (fun _ _ => rfl) (by decide) i (onto_rows onto i)

theorem reg6 (c : Dev nD) : (dat6 V c).arrAt 2 cfg6.N = Math.mm (K := 64) (V c main_v83) (V c main_v85) :=
  (dat6 V c).arrAt_eq_of_cover 2 _
    (fun t _ => (congrArg ((cfg6.win 2).cut (grid6.coords t)) (after6_2 V c t)).trans (funext
      (blk_mm pay6 (V c main_v83) (V c main_v85) (win6_0.rect_emb_val t) (win6_1.rect_emb_val t) (win6_2.rect_emb_val t)
        rfl rfl rfl rfl)))
    fun i => cover win6_2 flush6_2 (fun _ _ => rfl) (by decide) i (onto_rows onto i)

theorem reg9 (c : Dev nD) : (dat9 V c).arrAt 2 cfg9.N = Math.mm (K := 64) (V c main_v114) (V c main_v116) :=
  (dat9 V c).arrAt_eq_of_cover 2 _
    (fun t _ => (congrArg ((cfg9.win 2).cut (grid9.coords t)) (after9_2 V c t)).trans (funext
      (blk_mm pay6 (V c main_v114) (V c main_v116) (win9_0.rect_emb_val t) (win9_1.rect_emb_val t) (win9_2.rect_emb_val t)
        rfl rfl rfl rfl)))
    fun i => cover win9_2 flush9_2 (fun _ _ => rfl) (by decide) i (onto_rows onto i)

end Cert.KernelIdeal.RegVal

end
-- ==== Proof.RegStats.lean ====
import proofs.«173378_j55121610277361_1_alg».proof.Proof.Gen.KernelIdeal.Frame
import proofs.«173378_j55121610277361_1_alg».proof.Proof.Math
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem Cert.Math
open Idealize.ShloMosaic.Pipeline (Dat Cfg Window)
open Idealize.ShloMosaic.ValueIdx
open scoped BigOperators

/-- the part of a sum over the 50000 rows that lies in rows 5000 s … 5000 s + 4999 (nothing for s ≥ 10) -/
def blk (f : Fin 50000 → EReal) (s : ℕ) : EReal :=
  if h : s < 10 then ∑ r : Fin 5000, f ⟨5000 * s + r.val, by have := r.isLt; omega⟩ else 0

/-- the ten blocks make up all the rows: row 5000 s + r is pair (s, r) -/
theorem sum_blk (f : Fin 50000 → EReal) : ∑ s ∈ Finset.range 10, blk f s = ∑ r : Fin 50000, f r := by
  rw [← Fin.sum_univ_eq_sum_range (fun s => blk f s) 10, Finset.sum_congr rfl fun s _ => dif_pos s.isLt,
    ← Fintype.sum_prod_type']
  exact Fintype.sum_equiv (finProdFinEquiv : Fin 10 × Fin 5000 ≃ Fin (10 * 5000)) _ _
    fun p => congrArg f (Fin.ext (by show 5000 * p.1.val + p.2.val = p.2.val + 5000 * p.1.val; omega))

/-- `v` plus the sum of `y` over the row axis, at column `q` -/
theorem pay_apply (y : FVec Ideal S5000x64 .f32) (v : Vec Ideal S1x64 .f32) (u : Fin 1) (q : Fin 64) :
    addf (shapeCast S1x64 v shapeCasts_S1x64_S1x64) (shapeCast S1x64 (multiReduction (F := Ideal) .add [0] S64 y
      0x00000000#32 reduces_S5000x64_S64 (.inl rfl) rfl) shapeCasts_S64_S1x64) (ix2 u q)
      = v (ix2 u q) + ∑ r : Fin 5000, y (ix2 r q) := by
  rw [shapeCast_self v]
  show v (ix2 u q) + shapeCast S1x64 _ shapeCasts_S64_S1x64 (ix2 u q) = _
  rw [shapeCast_a_1a_apply _ shapeCasts_S64_S1x64 u q]
  refine congrArg _ ((Ideal.multiReduction_add_single y _ reduces_S5000x64_S64 _ _ (ix1 q)).trans
    (Finset.sum_congr rfl fun r _ => congrArg y (funext fun a => ?_)))
  match a with
  | ⟨0, _⟩ => exact Fin.ext rfl
  | ⟨1, _⟩ => exact Fin.ext rfl

theorem sumPay_apply (x : Vec Ideal S5000x64 .f32) (v : Vec Ideal S1x64 .f32) (u : Fin 1) (q : Fin 64) :
    k1_pay4 (F := Ideal) x v (ix2 u q) = v (ix2 u q) + ∑ r : Fin 5000, x (ix2 r q) :=
  (pay_apply _ v u q).trans (congrArg _ (Finset.sum_congr rfl fun r _ => congrFun (shapeCast_self x _) _))
theorem sqPay_apply (x : Vec Ideal S5000x64 .f32) (v : Vec Ideal S1x64 .f32) (u : Fin 1) (q : Fin 64) :
    k1_pay5 (F := Ideal) x v (ix2 u q) = v (ix2 u q) + ∑ r : Fin 5000, x (ix2 r q) * x (ix2 r q) :=
  (pay_apply _ v u q).trans (congrArg _ (Finset.sum_congr rfl fun r _ =>
    congrArg (fun a : EReal => a * a) (congrFun (shapeCast_self x _) _)))
theorem zeroPay_apply (j : S1x64.Idx) : k1_pay1 (F := Ideal) j = 0 ∧ k1_pay2 (F := Ideal) j = 0 :=
  ⟨Ideal.ofBits_zero_f32, Ideal.ofBits_zero_f32⟩

/-- starting from block 0's column sums and adding block n's at step n gives, after step 9, the sums over all 50000 rows -/
theorem acc_rows {N : ℕ} (hN : N = 10) (z : Mat 50000 64) (x : Fin N → Vec Ideal S5000x64 .f32)
    (hx : ∀ (t : Fin N) (r : Fin 5000) (q : Fin 64), x t (ix2 r q)
      = z (ix2 ⟨5000 * t.val + r.val, by have := t.isLt; have := r.isLt; omega⟩ q))
    (o : (n : ℕ) → n < N → Vec Ideal S1x64 .f32 × Vec Ideal S1x64 .f32)
    (hA : ∀ t : Fin N, t.val % 10 = 0 → o t.val t.isLt = (k1_pay4 (x t) (k1_pay1 (F := Ideal)), k1_pay5 (x t) (k1_pay2 (F := Ideal))))
    (hB : ∀ t : Fin N, ¬t.val % 10 = 0 → o t.val t.isLt
      = (k1_pay4 (x t) (o (t.val - 1) (Nat.lt_of_le_of_lt (Nat.sub_le _ _) t.isLt)).1,
         k1_pay5 (x t) (o (t.val - 1) (Nat.lt_of_le_of_lt (Nat.sub_le _ _) t.isLt)).2))
    (h9 : 9 < N) : (o 9 h9).1 = colSum z ∧ (o 9 h9).2 = colSumSq z := by
  subst hN
  have hs (t : Fin 10) (q : Fin 64) : ∑ r : Fin 5000, x t (ix2 r q) = blk (fun r => z (ix2 r q)) t.val := by
    rw [blk, dif_pos t.isLt]; exact Finset.sum_congr rfl fun r _ => hx t r q
  have hq (t : Fin 10) (q : Fin 64) : ∑ r : Fin 5000, x t (ix2 r q) * x t (ix2 r q)
      = blk (fun r => z (ix2 r q) * z (ix2 r q)) t.val := by
    rw [blk, dif_pos t.isLt]; exact Finset.sum_congr rfl fun r _ => by rw [hx t r q]
  have key : ∀ (n : ℕ) (h : n < 10) (u : Fin 1) (q : Fin 64),
      (o n h).1 (ix2 u q) = ∑ s ∈ Finset.range (n + 1), blk (fun r => z (ix2 r q)) s
      ∧ (o n h).2 (ix2 u q) = ∑ s ∈ Finset.range (n + 1), blk (fun r => z (ix2 r q) * z (ix2 r q)) s := by
    intro n
    induction n with
    | zero =>
      intro h u q
      rw [hA ⟨0, h⟩ rfl]
      dsimp only
      rw [sumPay_apply, sqPay_apply, (zeroPay_apply _).1, (zeroPay_apply _).2, zero_add, zero_add, zero_add,
        Finset.sum_range_one, Finset.sum_range_one, hs, hq]
      exact ⟨rfl, rfl⟩
    | succ n ih =>
      intro h u q
      rw [hB ⟨n + 1, h⟩ (by dsimp only; omega)]
      dsimp only [Nat.add_one_sub_one]
      rw [sumPay_apply, sqPay_apply, (ih _ u q).1, (ih _ u q).2, Finset.sum_range_succ _ (n + 1),
        Finset.sum_range_succ _ (n + 1), hs, hq]
      exact ⟨rfl, rfl⟩
  refine ⟨funext fun j => ?_, funext fun j => ?_⟩ <;>
    obtain ⟨u, q, rfl⟩ : ∃ (u : Fin 1) (q : Fin 64), j = ix2 u q := ⟨j 0, j 1, eq_ix2 j⟩
  · exact (key 9 h9 u q).1.trans (sum_blk fun r => z (ix2 r q))
  · exact (key 9 h9 u q).2.trans (sum_blk fun r => z (ix2 r q) * z (ix2 r q))

theorem hz : (![0, 0] : Fin 2 → Nat) = fun _ => 0 := funext fun a => by fin_cases a <;> rfl

section
variable {v1 v2 : View sig .tc .vmem S1x64 .f32} {c : Dev nD} {i : grid1.Coords} {a1 : Memref sig .tc .vmem S5000x64 .f32}
  {h1 : a1.IsWhole} {a2 a3 : Memref sig .tc .vmem S1x64 .f32} {x : Vec Ideal S5000x64 .f32}

/-- what the two stores of the first point leave: the payloads of the block and zero -/
theorem pairA (h2 : a2.IsWhole) (h3 : a3.IsWhole) (hc : cond1_0 i) :
    (v1.read (Elt Ideal) (v1.writes (Elt Ideal) v1.junk (kernelRun1_A c i a1 h1 a2 h2 a3 h3 hc x).1),
      v2.read (Elt Ideal) (v2.writes (Elt Ideal) v2.junk (kernelRun1_A c i a1 h1 a2 h2 a3 h3 hc x).2.1))
      = (k1_pay4 x (k1_pay1 (F := Ideal)), k1_pay5 x (k1_pay2 (F := Ideal))) := by
  rw [View.read_writes_eq_canon _ _ _ (cover1_A_1 c i a1 h1 a2 h2 a3 h3 hc x),
    View.read_writes_eq_canon _ _ _ (cover1_A_2 c i a1 h1 a2 h2 a3 h3 hc x)]
  unfold kernelRun1_A
  dsimp only
  sl_unfold_words
  simp only [View.canon_cons_unit_zero (S := S1x64) hz, View.readCov_unit_zero (S := S1x64) _ hz, View.readAt_eq_ld,
    h1.read_unread, View.ld_unit_zero (S := S5000x64) hz]

/-- what the two stores of a later point leave: the payloads of the block and the earlier contents -/
theorem pairB {h2 : a2.IsWhole} {h3 : a3.IsWhole} {xo1 xo2 : Vec Ideal S1x64 .f32} (hc : ¬cond1_0 i) :
    (v1.read (Elt Ideal) (v1.writes (Elt Ideal) v1.junk (kernelRun1_B c i a1 h1 a2 h2 a3 h3 hc x xo1 xo2).1),
      v2.read (Elt Ideal) (v2.writes (Elt Ideal) v2.junk (kernelRun1_B c i a1 h1 a2 h2 a3 h3 hc x xo1 xo2).2.1))
      = (k1_pay4 x xo1, k1_pay5 x xo2) := by
  rw [View.read_writes_eq_canon _ _ _ (cover1_B_1 c i a1 h1 a2 h2 a3 h3 hc x xo1 xo2),
    View.read_writes_eq_canon _ _ _ (cover1_B_2 c i a1 h1 a2 h2 a3 h3 hc x xo1 xo2)]
  unfold kernelRun1_B
  dsimp only
  sl_unfold_words
  simp only [View.canon_unit_zero (S := S1x64) hz, View.readAt_eq_ld, h1.read_unread, h2.read_unread, h3.read_unread,
    View.ld_unit_zero (S := S5000x64) hz, View.ld_unit_zero (S := S1x64) hz]

end

/-- entry (r, q) of block `t` is entry (5000 t + r, q) of the array -/
theorem blk_rows (f : Mat 50000 64) (t : Fin grid1.N) (r : Fin 5000) (q : Fin 64) :
    ((cfg1.win 0).blk t).view.read (Elt Ideal) f (ix2 r q)
      = f (ix2 ⟨5000 * t.val + r.val, by have := lt_of_lt_of_eq t.isLt N_1; have := r.isLt; omega⟩ q) := by
  have hi : win1_0.index t 0 = t.val ∧ win1_0.index t 1 = 0 :=
    (by decide +kernel : ∀ t : Fin grid1.N, win1_0.index t 0 = t.val ∧ win1_0.index t 1 = 0) t
  rw [View.read_apply]
  refine congrArg f (funext fun a => Fin.ext ?_)
  match a with
  | ⟨0, _⟩ => show win1_0.index t 0 * 5000 + 1 * r.val = 5000 * t.val + r.val; rw [hi.1]; omega
  | ⟨1, _⟩ => show win1_0.index t 1 * 64 + 1 * q.val = q.val; rw [hi.2]; omega

/-- the rectangle at offset zero with the array's own sizes reads the whole array and contains every index -/
theorem whole_blk (b : Ref sig .tc) {off : Fin b.ty.shape.rank → ℕ} (h : off = fun _ => 0)
    (inb : ∀ a, off a + b.ty.shape.size a ≤ b.ty.shape.size a) (G : b.ty.Contents (Elt Ideal))
    {X : b.ty.Contents (Elt Ideal)} (hX : X = G) :
    X = ((Memref.whole b).access (Rect.unit off b.ty.shape.size inb) : View sig .tc _ _ _).read (Elt Ideal) G
      ∧ ∀ i, i ∈ ((Memref.whole b).access (Rect.unit off b.ty.shape.size inb) : View sig .tc _ _ _).set := by
  subst h hX
  exact ⟨(Memref.read_access_whole _ b X).symm, fun i => (Finset.ext_iff.1 (Memref.set_access_whole b) i).2 (Finset.mem_univ i)⟩

theorem arrAt_last {cfg : Cfg sig Λ₀} {c : Dev nD} (dat : Dat τ (Elt Ideal) Unit ℕ (UR sig nD τ) ℕ cfg c) (w : Fin cfg.W)
    (hN : cfg.grid.N = 10) (hfl : ∀ t, (cfg.win w).flush t = true ↔ t.val % 10 = 9) (l : Fin cfg.N) (hl : l.val = 9)
    (G : Buf (Elt Ideal) ((cfg.win w).arr.view.loc (c.tc : Thread nD τ)))
    (hG : dat.flushed w l = ((cfg.win w).blk l).view.read (Elt Ideal) G ∧ ∀ i, i ∈ ((cfg.win w).blk l).view.set) :
    dat.arrAt w cfg.N = G :=
  dat.arrAt_eq_of_cover w G
    (fun t h => by
      obtain rfl : t = l := Fin.ext (by have := (hfl t).mp h; have := t.isLt; omega)
      exact hG.1)
    fun i => ⟨l, (hfl l).mpr (by omega), hG.2 i⟩

variable (V : (c : Dev nD) → (b : Ref sig .tc) → Buf (Elt Ideal) ((c : Thread nD τ).loc b))

theorem reg1 (c : Dev nD) :
    (dat1 V c).arrAt 1 cfg1.N = colSum (V c main_v46) ∧ (dat1 V c).arrAt 2 cfg1.N = colSumSq (V c main_v46) :=
  have H := acc_rows N_1 (V c main_v46) (iblk1 V c 0) (blk_rows _) (outsAt1 V c)
    (fun t h => (outsAt1_A V c t h).trans (pairA (hs1_1 t) (hs1_2 t) ((hcond1_0 t).mpr h)))
    (fun t h => (outsAt1_B V c t h).trans (pairB (mt (hcond1_0 t).mp h))) t1_9.isLt
  ⟨arrAt_last (dat1 V c) 1 N_1 flush1_1 t1_9 rfl _
      (whole_blk main_v47_0 (funext (by decide +kernel)) _ _ ((after1_1 V c t1_9).trans H.1)),
    arrAt_last (dat1 V c) 2 N_1 flush1_2 t1_9 rfl _
      (whole_blk main_v47_1 (funext (by decide +kernel)) _ _ ((after1_2 V c t1_9).trans H.2))⟩
theorem reg1_sum (c : Dev nD) : (dat1 V c).arrAt 1 cfg1.N = Math.colSum (V c main_v46) := (reg1 V c).1
theorem reg1_sq (c : Dev nD) : (dat1 V c).arrAt 2 cfg1.N = Math.colSumSq (V c main_v46) := (reg1 V c).2

theorem reg4 (c : Dev nD) :
    (dat4 V c).arrAt 1 cfg4.N = colSum (V c main_v73) ∧ (dat4 V c).arrAt 2 cfg4.N = colSumSq (V c main_v73) :=
  have H := acc_rows N_4 (V c main_v73) (iblk4 V c 0) (blk_rows _) (outsAt4 V c)
    (fun t h => (outsAt4_A V c t h).trans (pairA (hs4_1 t) (hs4_2 t) ((hcond4_0 t).mpr h)))
    (fun t h => (outsAt4_B V c t h).trans (pairB (mt (hcond4_0 t).mp h))) t4_9.isLt
  ⟨arrAt_last (dat4 V c) 1 N_4 flush4_1 t4_9 rfl _
      (whole_blk main_v74_0 (funext (by decide +kernel)) _ _ ((after4_1 V c t4_9).trans H.1)),
    arrAt_last (dat4 V c) 2 N_4 flush4_2 t4_9 rfl _
      (whole_blk main_v74_1 (funext (by decide +kernel)) _ _ ((after4_2 V c t4_9).trans H.2))⟩
theorem reg4_sum (c : Dev nD) : (dat4 V c).arrAt 1 cfg4.N = Math.colSum (V c main_v73) := (reg4 V c).1
theorem reg4_sq (c : Dev nD) : (dat4 V c).arrAt 2 cfg4.N = Math.colSumSq (V c main_v73) := (reg4 V c).2

theorem reg7 (c : Dev nD) :
    (dat7 V c).arrAt 1 cfg7.N = colSum (V c main_v104) ∧ (dat7 V c).arrAt 2 cfg7.N = colSumSq (V c main_v104) :=
  have H := acc_rows N_7 (V c main_v104) (iblk7 V c 0) (blk_rows _) (outsAt7 V c)
    (fun t h => (outsAt7_A V c t h).trans (pairA (hs7_1 t) (hs7_2 t) ((hcond7_0 t).mpr h)))
    (fun t h => (outsAt7_B V c t h).trans (pairB (mt (hcond7_0 t).mp h))) t7_9.isLt
  ⟨arrAt_last (dat7 V c) 1 N_7 flush7_1 t7_9 rfl _
      (whole_blk main_v105_0 (funext (by decide +kernel)) _ _ ((after7_1 V c t7_9).trans H.1)),
    arrAt_last (dat7 V c) 2 N_7 flush7_2 t7_9 rfl _
      (whole_blk main_v105_1 (funext (by decide +kernel)) _ _ ((after7_2 V c t7_9).trans H.2))⟩
theorem reg7_sum (c : Dev nD) : (dat7 V c).arrAt 1 cfg7.N = Math.colSum (V c main_v104) := (reg7 V c).1
theorem reg7_sq (c : Dev nD) : (dat7 V c).arrAt 2 cfg7.N = Math.colSumSq (V c main_v104) := (reg7 V c).2

theorem reg10 (c : Dev nD) :
    (dat10 V c).arrAt 1 cfg10.N = colSum (V c main_v135) ∧ (dat10 V c).arrAt 2 cfg10.N = colSumSq (V c main_v135) :=
  have H := acc_rows N_10 (V c main_v135) (iblk10 V c 0) (blk_rows _) (outsAt10 V c)
    (fun t h => (outsAt10_A V c t h).trans (pairA (hs10_1 t) (hs10_2 t) ((hcond10_0 t).mpr h)))
    (fun t h => (outsAt10_B V c t h).trans (pairB (mt (hcond10_0 t).mp h))) t10_9.isLt
  ⟨arrAt_last (dat10 V c) 1 N_10 flush10_1 t10_9 rfl _
      (whole_blk main_v136_0 (funext (by decide +kernel)) _ _ ((after10_1 V c t10_9).trans H.1)),
    arrAt_last (dat10 V c) 2 N_10 flush10_2 t10_9 rfl _
      (whole_blk main_v136_1 (funext (by decide +kernel)) _ _ ((after10_2 V c t10_9).trans H.2))⟩
theorem reg10_sum (c : Dev nD) : (dat10 V c).arrAt 1 cfg10.N = Math.colSum (V c main_v135) := (reg10 V c).1
theorem reg10_sq (c : Dev nD) : (dat10 V c).arrAt 2 cfg10.N = Math.colSumSq (V c main_v135) := (reg10 V c).2

end Cert.KernelIdeal.RegVal

end
-- ==== Proof.RegNorm.lean ====
import proofs.«173378_j55121610277361_1_alg».proof.Proof.Gen.KernelIdeal.Frame
import proofs.«173378_j55121610277361_1_alg».proof.Proof.Math
import Idealize.ShloMosaic.Lib.Pipeline.Value
import Idealize.ShloMosaic.Lib.ValueLayout
import Idealize.ShloMosaic.PureOps.Ideal.Laws

noncomputable section

namespace Cert.KernelIdeal.RegVal

open Cert.KernelIdeal Cert.KernelIdeal.Gen Idealize.ShloMosaic Idealize.ShloMosaic.TcCoe Idealize.SL.Sem Cert.Math
open Idealize.ShloMosaic.Pipeline (Dat Cfg Window)
open Idealize.ShloMosaic.ValueIdx

variable (V : (c : Dev nD) → (b : Ref sig .tc) → Buf (Elt Ideal) ((c : Thread nD τ).loc b))

-- Each row is broadcast down the block, so at (p, q) it gives its entry (0, q); the zero word is the real 0.
theorem norm_out_at (x0 : Vec Ideal S5000x64 .f32) (x1 x2 x3 x4 : Vec Ideal S1x64 .f32) (i : S5000x64.Idx) :
    out2_5 (F := Ideal) x0 x1 x2 x3 x4 i
      = max (x3 (ix2 0 (i 1)) * (x0 i - x1 (ix2 0 (i 1))) * Ideal.rsqrt (x2 (ix2 0 (i 1)) + cEps) + x4 (ix2 0 (i 1))) 0 := by
  have hz : (![0, 0] : Fin 2 → Nat) = fun _ => 0 := funext fun a => by fin_cases a <;> rfl
  obtain ⟨p, q, rfl⟩ : ∃ (p : Fin 5000) (q : Fin 64), i = ix2 p q := ⟨i 0, i 1, eq_ix2 i⟩
  unfold out2_5 k2_pay1
  rw [View.canon_unit_zero hz]
  simp only [View.ld_unit_zero (S := S5000x64) hz, View.ld_unit_zero (S := S1x64) hz, shapeCast_self]
  rw [maximumf_apply, addf_apply, mulf_apply, mulf_apply, subf_apply, broadcast_apply,
    broadcastTo_1b_ab_apply, broadcastTo_1b_ab_apply, broadcastTo_1b_ab_apply, broadcastTo_1b_ab_apply]
  exact congrArg _ Ideal.ofBits_zero_f32

-- bnRelu at k reads z at k and the four rows at (0, k 1).
theorem bnRelu_at (Z : Mat 50000 64) (M Vr G B : Mat 1 64) {k k0 : S50000x64.Idx} {k1 : S1x64.Idx}
    (h0 : k0 = k) (h1 : k1 = ix2 0 (k 1)) :
    max (G k1 * (Z k0 - M k1) * Ideal.rsqrt (Vr k1 + cEps) + B k1) 0 = bnRelu Z M Vr G B k := by
  subst h0 h1; rfl

-- Block t of the output is bnRelu on block t of z: both sit at rows 5000 t + p, and a row array's one block is itself.
theorem norm_blk (Z : Mat 50000 64) (M Vr G B : Mat 1 64) (t : Fin grid2.N) (j : S5000x64.Idx) :
    out2_5 (F := Ideal) (fun y => Z ((win2_0.blk t).view.emb y)) (fun y => M ((win2_1.blk t).view.emb y))
        (fun y => Vr ((win2_2.blk t).view.emb y)) (fun y => G ((win2_3.blk t).view.emb y))
        (fun y => B ((win2_4.blk t).view.emb y)) j
      = bnRelu Z M Vr G B ((win2_5.blk t).view.emb j) :=
  (norm_out_at _ _ _ _ _ j).trans (bnRelu_at Z M Vr G B rfl (Shape.idx_ext₂ (win2_3.rect_emb_val_of_index_zero t 0 rfl _)
    ((win2_3.rect_emb_val_of_index_zero t 1 rfl _).trans (win2_5.rect_emb_val_of_index_zero t 1 rfl j).symm)))

-- Row r lies in the block of point r / 5000.
theorem norm_cover (i : S50000x64.Idx) : ∃ t : Fin grid2.N, i ∈ (win2_5.blk t).view.set := by
  have hi0 : (i 0).val < 50000 := (i 0).isLt
  have hi1 : (i 1).val < 64 := (i 1).isLt
  have ht : (i 0).val / 5000 < grid2.N := by rw [N_2]; omega
  have e0 : win2_5.index ⟨_, ht⟩ 0 = (i 0).val / 5000 := by
    show (BitVec.ofNat 32 ((i 0).val / 5000 / 1 % 10)).toNat = _
    rw [BitVec.toNat_ofNat]; omega
  refine ⟨⟨_, ht⟩, ?_⟩
  show i ∈ ((View.whole main_v56).slice (win2_5.rect ⟨_, ht⟩)).set
  rw [View.set_slice_whole, Rect.mem_set_unit]
  intro a
  match a with
  | ⟨0, _⟩ => show win2_5.index ⟨_, ht⟩ 0 * 5000 ≤ (i 0).val ∧ (i 0).val < win2_5.index ⟨_, ht⟩ 0 * 5000 + 5000; omega
  | ⟨1, _⟩ => show 0 * 64 ≤ (i 1).val ∧ (i 1).val < 0 * 64 + 64; omega

theorem reg2 (c : Dev nD) : (dat2 V c).arrAt 5 cfg2.N = Math.bnRelu (V c main_v46) (V c main_v49) (V c main_v53) (V c main_v54) (V c main_v55) :=
  (dat2 V c).arrAt_eq_of_cover 5 _ (fun t _ => (congrArg _ (after2_5 V c t)).trans (funext fun j => norm_blk _ _ _ _ _ t j))
    fun i => (norm_cover i).imp fun t h => ⟨flush2_5 t, h⟩

-- Launches 5, 8 and 11 compute the same function on the same blocks as launch 2.
theorem reg5 (c : Dev nD) : (dat5 V c).arrAt 5 cfg5.N = Math.bnRelu (V c main_v73) (V c main_v76) (V c main_v80) (V c main_v81) (V c main_v82) :=
  (dat5 V c).arrAt_eq_of_cover 5 _ (fun t _ => (congrArg _ (after5_5 V c t)).trans (funext fun j => norm_blk _ _ _ _ _ t j))
    fun i => (norm_cover i).imp fun t h => ⟨flush5_5 t, h⟩

theorem reg8 (c : Dev nD) : (dat8 V c).arrAt 5 cfg8.N = Math.bnRelu (V c main_v104) (V c main_v107) (V c main_v111) (V c main_v112) (V c main_v113) :=
  (dat8 V c).arrAt_eq_of_cover 5 _ (fun t _ => (congrArg _ (after8_5 V c t)).trans (funext fun j => norm_blk _ _ _ _ _ t j))
    fun i => (norm_cover i).imp fun t h => ⟨flush8_5 t, h⟩

theorem reg11 (c : Dev nD) : (dat11 V c).arrAt 5 cfg11.N = Math.bnRelu (V c main_v135) (V c main_v138) (V c main_v142) (V c main_v143) (V c main_v144) :=
  (dat11 V c).arrAt_eq_of_cover 5 _ (fun t _ => (congrArg _ (after11_5 V c t)).trans (funext fun j => norm_blk _ _ _ _ _ t j))
    fun i => (norm_cover i).imp fun t h => ⟨flush11_5 t, h⟩

end Cert.KernelIdeal.RegVal

end
-- ==== Proof.KFL.lean ====
import proofs.«173378_j55121610277361_1_alg».proof.Proof.Gen.KernelIdeal.Frame
import proofs.«173378_j55121610277361_1_alg».proof.Proof.Gen.ReferenceIdeal
import proofs.«173378_j55121610277361_1_alg».proof.Proof.Results
import proofs.«173378_j55121610277361_1_alg».proof.Proof.RegMat
import proofs.«173378_j55121610277361_1_alg».proof.Proof.RegStats
import proofs.«173378_j55121610277361_1_alg».proof.Proof.RegNorm
import Idealize.ShloMosaic.Lib.StableHlo.Run
import Idealize.ShloMosaic.Lib.ValueLayout

noncomputable section

namespace Cert.KernelIdeal.KFold

open Cert.KernelIdeal Cert.KernelIdeal.Gen Idealize.ShloMosaic Idealize.ShloMosaic.TcCoe Idealize.SL.Sem Idealize.ShloMosaic.StableHlo

abbrev 𝒱 : Type := Valuation τ sig (Elt Ideal)

-- outside `L`, `V'` holds what `V` holds
def Keeps (V V' : 𝒱) (L : List (Ref sig .tc)) : Prop := ∀ b, b ∉ L → V' (Proc.devRef .tc b) = V (Proc.devRef .tc b)

theorem Keeps.trans {V V' V'' : 𝒱} {L L' : List (Ref sig .tc)} (h : Keeps V V' L) (h' : Keeps V' V'' L') : Keeps V V'' (L ++ L') :=
  fun b hb => (h' b fun m => hb (List.mem_append_right _ m)).trans (h b fun m => hb (List.mem_append_left _ m))

-- every operation of the line has one result, so a buffer that is none of the results keeps its contents
theorem keeps_host (ops : List (HloOp τ sig (Elt Ideal))) (V : 𝒱) (L : List (Ref sig .tc))
    (h : ops.map (·.writes) = L.map fun y => {Proc.devRef .tc y}) : Keeps V (after ops V) L :=
  fun b hb => after_of_forall_not_mem ops V fun op hop hm => by
    have := List.mem_map_of_mem (f := (·.writes)) hop
    rw [h] at this
    obtain ⟨y, hy, e⟩ := List.mem_map.mp this
    rw [← e, Finset.mem_singleton] at hm
    exact hb (Proc.devRef_injective _ hm ▸ hy)

-- the valuation after a launch differs from the one before only at the launch's output arrays
theorem keeps_launch {cfg : Pipeline.Cfg sig Λ₀} {c : Dev nD} (dat : Pipeline.Dat τ (Elt Ideal) Unit ℕ (UR sig nD τ) ℕ cfg c) (V : 𝒱)
    (hinj : Function.Injective (Pipeline.arrRef cfg.spec)) (hA : ∀ w, dat.A w = V (Proc.devRef .tc (Pipeline.arrRef cfg.spec w)))
    (L : List (Ref sig .tc)) (hL : ∀ w, (cfg.win w).isOut = true → Pipeline.arrRef cfg.spec w ∈ L) :
    Keeps V (Pipeline.withArrays cfg.spec c V fun w => dat.arrAt w cfg.N) L := by
  intro b hb
  by_cases h : ∃ w, Pipeline.arrRef cfg.spec w = b
  · obtain ⟨w, rfl⟩ := h
    rw [Pipeline.withArrays_arr _ hinj, dat.arrAt_in w (by cases e : (cfg.win w).isOut; rfl; exact absurd (hL w e) hb), hA]
  · exact Pipeline.withArrays_of_ne _ c V _ b fun w e => h ⟨w, e⟩

-- a buffer whose contents have type `α`, and what it holds in a valuation
structure Rd (α : Type) where
  ref : Ref sig .tc
  ty : (Proc.devRef (τ := τ) .tc ref).ty.Contents (Elt Ideal) = α

def Rd.get {α : Type} (r : Rd α) (V : 𝒱) : α := cast r.ty (V (Proc.devRef .tc r.ref))

theorem Keeps.get {V V' : 𝒱} {L : List (Ref sig .tc)} (h : Keeps V V' L) {α : Type} (r : Rd α) (hr : r.ref ∉ L) : r.get V' = r.get V :=
  congrArg (cast r.ty) (h r.ref hr)

-- a length-64 vector reshaped to 1 x 64 reads its entry at the column
theorem row_read (x : Math.Row 64) (h : (⟨1, ![64]⟩ : Shape).ShapeCasts ⟨2, ![1, 64]⟩) : shapeCast ⟨2, ![1, 64]⟩ x h = Math.row x :=
  funext fun j => by rw [ValueIdx.eq_ix2 j]; exact ValueIdx.shapeCast_a_1a_apply x h _ _

-- the five stages composed: each reads what the one before left, and what it does not write is kept
theorem layer {K : ℕ} (V0 V1 V3 V5 : 𝒱) (opsA opsB : List (HloOp τ sig (Elt Ideal))) (LA LB : List (Ref sig .tc))
    (s d : Rd (Results.IA ReferenceIdeal.S850000)) (e : Rd (Results.FA ReferenceIdeal.S850000)) (x : Rd (Math.Mat 50000 K)) (w : Rd (Math.Mat K 64))
    (bi γ β : Rd (Math.Row 64)) (y z o : Rd (Math.Mat 50000 64)) (s0 s1 mu va g b : Rd (Math.Mat 1 64))
    (kA : Keeps V0 V1 [y.ref]) (hy : y.get V1 = Math.mm (x.get V0) (w.get V0))
    (wA : opsA.map (·.writes) = LA.map fun r => {Proc.devRef .tc r})
    (hz : ∀ V, z.get (after opsA V) = Spec.addBias (F := Ideal) (Spec.prop (s.get V) (d.get V) (e.get V) (y.get V)) (bi.get V))
    (kB : Keeps (after opsA V1) V3 [s0.ref, s1.ref])
    (h0 : s0.get V3 = Math.colSum (z.get (after opsA V1))) (h1 : s1.get V3 = Math.colSumSq (z.get (after opsA V1)))
    (wB : opsB.map (·.writes) = LB.map fun r => {Proc.devRef .tc r})
    (hmu : ∀ V, mu.get (after opsB V) = Math.meanOf (s0.get V)) (hva : ∀ V, va.get (after opsB V) = Math.varOf (s0.get V) (s1.get V))
    (hg : ∀ V, g.get (after opsB V) = Math.row (γ.get V)) (hb : ∀ V, b.get (after opsB V) = Math.row (β.get V))
    (kC : Keeps (after opsB V3) V5 [o.ref])
    (ho : o.get V5 = Math.bnRelu (z.get (after opsB V3)) (mu.get (after opsB V3)) (va.get (after opsB V3)) (g.get (after opsB V3)) (b.get (after opsB V3)))
    (hd : s.ref ∉ [y.ref] ∧ d.ref ∉ [y.ref] ∧ e.ref ∉ [y.ref] ∧ bi.ref ∉ [y.ref] ∧ z.ref ∉ [s0.ref, s1.ref] ++ LB
      ∧ γ.ref ∉ [y.ref] ++ (LA ++ [s0.ref, s1.ref]) ∧ β.ref ∉ [y.ref] ++ (LA ++ [s0.ref, s1.ref])) :
    o.get V5 = Results.layerK (s.get V0) (d.get V0) (e.get V0) (x.get V0) (w.get V0) (bi.get V0) (γ.get V0) (β.get V0)
      ∧ Keeps V0 V5 ([y.ref] ++ (LA ++ ([s0.ref, s1.ref] ++ (LB ++ [o.ref])))) := by
  obtain ⟨a1, a2, a3, a4, a5, a6, a7⟩ := hd
  have kHA := keeps_host opsA V1 LA wA
  have kHB := keeps_host opsB V3 LB wB
  have k3 := kA.trans (kHA.trans kB)
  refine ⟨?_, kA.trans (kHA.trans (kB.trans (kHB.trans kC)))⟩
  rw [ho, hmu, hva, hg, hb, h0, h1, (kB.trans kHB).get z a5, hz, hy, kA.get s a1, kA.get d a2, kA.get e a3, kA.get bi a4, k3.get γ a6, k3.get β a7]
  rfl

variable (m : (ℓ : Loc nD τ sig) → Buf (Elt Ideal) ℓ) (ρ : Dev nD → PrngReg) (c : Dev nD)

abbrev l1_hA_W : List (Ref sig .tc) := [main_c_6, main_v31, main_v32, main_c_7, main_v33, main_v34, main_v35, main_v36, main_v37, main_v38, main_v39, main_v40, main_cst_8, main_v41, main_v42, main_v43, main_v44, main_v45, main_v46]
abbrev l1_hB_W : List (Ref sig .tc) := [main_cst_9, main_v48, main_v49, main_cst_10, main_v50, main_v51, main_v52, main_v53, main_v54, main_v55]
abbrev l1_W : List (Ref sig .tc) := main_v30 :: l1_hA_W ++ main_v47_0 :: main_v47_1 :: l1_hB_W ++ [main_v56]

theorem l1 : W8 m ρ c main_v56 = Results.layerK (W3 m ρ c main_v3) (W3 m ρ c main_v6) (W3 m ρ c main_v29) (W3 m ρ c main_arg0) (W3 m ρ c main_arg2) (W3 m ρ c main_arg3) (W3 m ρ c main_arg8) (W3 m ρ c main_arg9)
    ∧ Keeps (W3 m ρ c) (W8 m ρ c) l1_W :=
  layer (K := 128) (W3 m ρ c) (W4 m ρ c) (W6 m ρ c) (W8 m ρ c) hostOps1 hostOps2 l1_hA_W l1_hB_W
    ⟨main_v3, rfl⟩ ⟨main_v6, rfl⟩ ⟨main_v29, rfl⟩ ⟨main_arg0, rfl⟩ ⟨main_arg2, rfl⟩ ⟨main_arg3, rfl⟩ ⟨main_arg8, rfl⟩ ⟨main_arg9, rfl⟩
    ⟨main_v30, rfl⟩ ⟨main_v46, rfl⟩ ⟨main_v56, rfl⟩ ⟨main_v47_0, rfl⟩ ⟨main_v47_1, rfl⟩ ⟨main_v49, rfl⟩ ⟨main_v53, rfl⟩ ⟨main_v54, rfl⟩ ⟨main_v55, rfl⟩
    (keeps_launch (dat0 (V3 m ρ) c) _ launch0.win.arr_inj (A_eq0 _ c) _ (by decide)) ((W4_arr m ρ c 2).trans (RegVal.reg0 (V3 m ρ) c))
    rfl (fun V => by unfold Rd.get; after_results_simp; rfl)
    (keeps_launch (dat1 (V5 m ρ) c) _ launch1.win.arr_inj (A_eq1 _ c) _ (by decide))
    ((W6_arr m ρ c 1).trans (RegVal.reg1_sum (V5 m ρ) c)) ((W6_arr m ρ c 2).trans (RegVal.reg1_sq (V5 m ρ) c))
    rfl (fun V => by unfold Rd.get; after_results_simp; rfl) (fun V => by unfold Rd.get; after_results_simp; rfl)
    (fun V => by unfold Rd.get; after_results_simp; exact row_read _ _) (fun V => by unfold Rd.get; after_results_simp; exact row_read _ _)
    (keeps_launch (dat2 (V7 m ρ) c) _ launch2.win.arr_inj (A_eq2 _ c) _ (by decide)) ((W8_arr m ρ c 5).trans (RegVal.reg2 (V7 m ρ) c))
    (by decide)

theorem l1_out : W8 m ρ c (Proc.devRef .tc main_v56) = Cert.Results.layerK (W3 m ρ c (Proc.devRef .tc main_v3)) (W3 m ρ c (Proc.devRef .tc main_v6)) (W3 m ρ c (Proc.devRef .tc main_v29)) (W3 m ρ c (Proc.devRef .tc main_arg0)) (W3 m ρ c (Proc.devRef .tc main_arg2)) (W3 m ρ c (Proc.devRef .tc main_arg3)) (W3 m ρ c (Proc.devRef .tc main_arg8)) (W3 m ρ c (Proc.devRef .tc main_arg9)) :=
  (l1 m ρ c).1

theorem l1_keep (b : Ref sig .tc) (hb : b ∉ l1_W) : W8 m ρ c (Proc.devRef .tc b) = W3 m ρ c (Proc.devRef .tc b) := (l1 m ρ c).2 b hb

abbrev l2_hA_W : List (Ref sig .tc) := [main_c_11, main_v58, main_v59, main_c_12, main_v60, main_v61, main_v62, main_v63, main_v64, main_v65, main_v66, main_v67, main_cst_13, main_v68, main_v69, main_v70, main_v71, main_v72, main_v73]
abbrev l2_hB_W : List (Ref sig .tc) := [main_cst_14, main_v75, main_v76, main_cst_15, main_v77, main_v78, main_v79, main_v80, main_v81, main_v82]
abbrev l2_W : List (Ref sig .tc) := main_v57 :: l2_hA_W ++ main_v74_0 :: main_v74_1 :: l2_hB_W ++ [main_v83]

theorem l2 : W13 m ρ c main_v83 = Results.layerK (W8 m ρ c main_v3) (W8 m ρ c main_v6) (W8 m ρ c main_v29) (W8 m ρ c main_v56) (W8 m ρ c main_arg4) (W8 m ρ c main_arg5) (W8 m ρ c main_arg10) (W8 m ρ c main_arg11)
    ∧ Keeps (W8 m ρ c) (W13 m ρ c) l2_W :=
  layer (K := 64) (W8 m ρ c) (W9 m ρ c) (W11 m ρ c) (W13 m ρ c) hostOps4 hostOps5 l2_hA_W l2_hB_W
    ⟨main_v3, rfl⟩ ⟨main_v6, rfl⟩ ⟨main_v29, rfl⟩ ⟨main_v56, rfl⟩ ⟨main_arg4, rfl⟩ ⟨main_arg5, rfl⟩ ⟨main_arg10, rfl⟩ ⟨main_arg11, rfl⟩
    ⟨main_v57, rfl⟩ ⟨main_v73, rfl⟩ ⟨main_v83, rfl⟩ ⟨main_v74_0, rfl⟩ ⟨main_v74_1, rfl⟩ ⟨main_v76, rfl⟩ ⟨main_v80, rfl⟩ ⟨main_v81, rfl⟩ ⟨main_v82, rfl⟩
    (keeps_launch (dat3 (V8 m ρ) c) _ launch3.win.arr_inj (A_eq3 _ c) _ (by decide)) ((W9_arr m ρ c 2).trans (RegVal.reg3 (V8 m ρ) c))
    rfl (fun V => by unfold Rd.get; after_results_simp; rfl)
    (keeps_launch (dat4 (V10 m ρ) c) _ launch4.win.arr_inj (A_eq4 _ c) _ (by decide))
    ((W11_arr m ρ c 1).trans (RegVal.reg4_sum (V10 m ρ) c)) ((W11_arr m ρ c 2).trans (RegVal.reg4_sq (V10 m ρ) c))
    rfl (fun V => by unfold Rd.get; after_results_simp; rfl) (fun V => by unfold Rd.get; after_results_simp; rfl)
    (fun V => by unfold Rd.get; after_results_simp; exact row_read _ _) (fun V => by unfold Rd.get; after_results_simp; exact row_read _ _)
    (keeps_launch (dat5 (V12 m ρ) c) _ launch5.win.arr_inj (A_eq5 _ c) _ (by decide)) ((W13_arr m ρ c 5).trans (RegVal.reg5 (V12 m ρ) c))
    (by decide)

theorem l2_out : W13 m ρ c (Proc.devRef .tc main_v83) = Cert.Results.layerK (W8 m ρ c (Proc.devRef .tc main_v3)) (W8 m ρ c (Proc.devRef .tc main_v6)) (W8 m ρ c (Proc.devRef .tc main_v29)) (W8 m ρ c (Proc.devRef .tc main_v56)) (W8 m ρ c (Proc.devRef .tc main_arg4)) (W8 m ρ c (Proc.devRef .tc main_arg5)) (W8 m ρ c (Proc.devRef .tc main_arg10)) (W8 m ρ c (Proc.devRef .tc main_arg11)) :=
  (l2 m ρ c).1

theorem l2_keep (b : Ref sig .tc) (hb : b ∉ l2_W) : W13 m ρ c (Proc.devRef .tc b) = W8 m ρ c (Proc.devRef .tc b) := (l2 m ρ c).2 b hb

abbrev l3a_W : List (Ref sig .tc) := [main_v84, main_v85, main_v86, main_v87]
abbrev l3b_W : List (Ref sig .tc) := [main_c_16, main_v89, main_v90, main_c_17, main_v91, main_v92, main_v93, main_v94, main_v95, main_v96, main_v97, main_v98, main_cst_18, main_v99, main_v100, main_v101, main_v102, main_v103, main_v104]
abbrev l3c_W : List (Ref sig .tc) := [main_cst_19, main_v106, main_v107, main_cst_20, main_v108, main_v109, main_v110, main_v111, main_v112, main_v113]
abbrev l3_W : List (Ref sig .tc) := l3a_W ++ (main_v88 :: l3b_W ++ main_v105_0 :: main_v105_1 :: l3c_W ++ [main_v114])

theorem l3 : W19 m ρ c main_v114 = Results.layerK (W14 m ρ c main_v3) (W14 m ρ c main_v6) (W14 m ρ c main_v29) (W14 m ρ c main_v83) (W14 m ρ c main_v85) (W14 m ρ c main_v87) (W14 m ρ c main_arg12) (W14 m ρ c main_arg13)
    ∧ Keeps (W14 m ρ c) (W19 m ρ c) (main_v88 :: l3b_W ++ main_v105_0 :: main_v105_1 :: l3c_W ++ [main_v114]) :=
  layer (K := 64) (W14 m ρ c) (W15 m ρ c) (W17 m ρ c) (W19 m ρ c) hostOps7 hostOps8 l3b_W l3c_W
    ⟨main_v3, rfl⟩ ⟨main_v6, rfl⟩ ⟨main_v29, rfl⟩ ⟨main_v83, rfl⟩ ⟨main_v85, rfl⟩ ⟨main_v87, rfl⟩ ⟨main_arg12, rfl⟩ ⟨main_arg13, rfl⟩
    ⟨main_v88, rfl⟩ ⟨main_v104, rfl⟩ ⟨main_v114, rfl⟩ ⟨main_v105_0, rfl⟩ ⟨main_v105_1, rfl⟩ ⟨main_v107, rfl⟩ ⟨main_v111, rfl⟩ ⟨main_v112, rfl⟩ ⟨main_v113, rfl⟩
    (keeps_launch (dat6 (V14 m ρ) c) _ launch6.win.arr_inj (A_eq6 _ c) _ (by decide)) ((W15_arr m ρ c 2).trans (RegVal.reg6 (V14 m ρ) c))
    rfl (fun V => by unfold Rd.get; after_results_simp; rfl)
    (keeps_launch (dat7 (V16 m ρ) c) _ launch7.win.arr_inj (A_eq7 _ c) _ (by decide))
    ((W17_arr m ρ c 1).trans (RegVal.reg7_sum (V16 m ρ) c)) ((W17_arr m ρ c 2).trans (RegVal.reg7_sq (V16 m ρ) c))
    rfl (fun V => by unfold Rd.get; after_results_simp; rfl) (fun V => by unfold Rd.get; after_results_simp; rfl)
    (fun V => by unfold Rd.get; after_results_simp; exact row_read _ _) (fun V => by unfold Rd.get; after_results_simp; exact row_read _ _)
    (keeps_launch (dat8 (V18 m ρ) c) _ launch8.win.arr_inj (A_eq8 _ c) _ (by decide)) ((W19_arr m ρ c 5).trans (RegVal.reg8 (V18 m ρ) c))
    (by decide)

theorem l3_k : Keeps (W13 m ρ c) (W14 m ρ c) l3a_W := keeps_host _ _ _ rfl
theorem l3_w : W14 m ρ c main_v85 = Spec.wx0 (W13 m ρ c main_arg6) := by show after hostOps6 _ _ = _; after_results_simp; rfl
theorem l3_b : W14 m ρ c main_v87 = Spec.bx0 (W13 m ρ c main_arg7) := by show after hostOps6 _ _ = _; after_results_simp; rfl

theorem l3_out : W19 m ρ c (Proc.devRef .tc main_v114) = Cert.Results.layerK (W13 m ρ c (Proc.devRef .tc main_v3)) (W13 m ρ c (Proc.devRef .tc main_v6)) (W13 m ρ c (Proc.devRef .tc main_v29)) (W13 m ρ c (Proc.devRef .tc main_v83)) (Cert.Spec.wx0 (W13 m ρ c (Proc.devRef .tc main_arg6))) (Cert.Spec.bx0 (W13 m ρ c (Proc.devRef .tc main_arg7))) (W13 m ρ c (Proc.devRef .tc main_arg12)) (W13 m ρ c (Proc.devRef .tc main_arg13)) := by
  have k := l3_k m ρ c
  rw [(l3 m ρ c).1, l3_w, l3_b, k main_v3 (by decide), k main_v6 (by decide), k main_v29 (by decide), k main_v83 (by decide), k main_arg12 (by decide), k main_arg13 (by decide)]

theorem l3_keep (b : Ref sig .tc) (hb : b ∉ l3_W) : W19 m ρ c (Proc.devRef .tc b) = W13 m ρ c (Proc.devRef .tc b) := ((l3_k m ρ c).trans (l3 m ρ c).2) b hb

abbrev l4a_W : List (Ref sig .tc) := [main_v115, main_v116, main_v117, main_v118]
abbrev l4b_W : List (Ref sig .tc) := [main_c_21, main_v120, main_v121, main_c_22, main_v122, main_v123, main_v124, main_v125, main_v126, main_v127, main_v128, main_v129, main_cst_23, main_v130, main_v131, main_v132, main_v133, main_v134, main_v135]
abbrev l4c_W : List (Ref sig .tc) := [main_cst_24, main_v137, main_v138, main_cst_25, main_v139, main_v140, main_v141, main_v142, main_v143, main_v144]
abbrev l4_W : List (Ref sig .tc) := l4a_W ++ (main_v119 :: l4b_W ++ main_v136_0 :: main_v136_1 :: l4c_W ++ [main_v145])

theorem l4 : W25 m ρ c main_v145 = Results.layerK (W20 m ρ c main_v3) (W20 m ρ c main_v6) (W20 m ρ c main_v29) (W20 m ρ c main_v114) (W20 m ρ c main_v116) (W20 m ρ c main_v118) (W20 m ρ c main_arg12) (W20 m ρ c main_arg13)
    ∧ Keeps (W20 m ρ c) (W25 m ρ c) (main_v119 :: l4b_W ++ main_v136_0 :: main_v136_1 :: l4c_W ++ [main_v145]) :=
  layer (K := 64) (W20 m ρ c) (W21 m ρ c) (W23 m ρ c) (W25 m ρ c) hostOps10 hostOps11 l4b_W l4c_W
    ⟨main_v3, rfl⟩ ⟨main_v6, rfl⟩ ⟨main_v29, rfl⟩ ⟨main_v114, rfl⟩ ⟨main_v116, rfl⟩ ⟨main_v118, rfl⟩ ⟨main_arg12, rfl⟩ ⟨main_arg13, rfl⟩
    ⟨main_v119, rfl⟩ ⟨main_v135, rfl⟩ ⟨main_v145, rfl⟩ ⟨main_v136_0, rfl⟩ ⟨main_v136_1, rfl⟩ ⟨main_v138, rfl⟩ ⟨main_v142, rfl⟩ ⟨main_v143, rfl⟩ ⟨main_v144, rfl⟩
    (keeps_launch (dat9 (V20 m ρ) c) _ launch9.win.arr_inj (A_eq9 _ c) _ (by decide)) ((W21_arr m ρ c 2).trans (RegVal.reg9 (V20 m ρ) c))
    rfl (fun V => by unfold Rd.get; after_results_simp; rfl)
    (keeps_launch (dat10 (V22 m ρ) c) _ launch10.win.arr_inj (A_eq10 _ c) _ (by decide))
    ((W23_arr m ρ c 1).trans (RegVal.reg10_sum (V22 m ρ) c)) ((W23_arr m ρ c 2).trans (RegVal.reg10_sq (V22 m ρ) c))
    rfl (fun V => by unfold Rd.get; after_results_simp; rfl) (fun V => by unfold Rd.get; after_results_simp; rfl)
    (fun V => by unfold Rd.get; after_results_simp; exact row_read _ _) (fun V => by unfold Rd.get; after_results_simp; exact row_read _ _)
    (keeps_launch (dat11 (V24 m ρ) c) _ launch11.win.arr_inj (A_eq11 _ c) _ (by decide)) ((W25_arr m ρ c 5).trans (RegVal.reg11 (V24 m ρ) c))
    (by decide)

theorem l4_k : Keeps (W19 m ρ c) (W20 m ρ c) l4a_W := keeps_host _ _ _ rfl
theorem l4_w : W20 m ρ c main_v116 = Spec.wx1 (W19 m ρ c main_arg6) := by show after hostOps9 _ _ = _; after_results_simp; rfl
theorem l4_b : W20 m ρ c main_v118 = Spec.bx1 (W19 m ρ c main_arg7) := by show after hostOps9 _ _ = _; after_results_simp; rfl

theorem l4_out : W25 m ρ c (Proc.devRef .tc main_v145) = Cert.Results.layerK (W19 m ρ c (Proc.devRef .tc main_v3)) (W19 m ρ c (Proc.devRef .tc main_v6)) (W19 m ρ c (Proc.devRef .tc main_v29)) (W19 m ρ c (Proc.devRef .tc main_v114)) (Cert.Spec.wx1 (W19 m ρ c (Proc.devRef .tc main_arg6))) (Cert.Spec.bx1 (W19 m ρ c (Proc.devRef .tc main_arg7))) (W19 m ρ c (Proc.devRef .tc main_arg12)) (W19 m ρ c (Proc.devRef .tc main_arg13)) := by
  have k := l4_k m ρ c
  rw [(l4 m ρ c).1, l4_w, l4_b, k main_v3 (by decide), k main_v6 (by decide), k main_v29 (by decide), k main_v114 (by decide), k main_arg12 (by decide), k main_arg13 (by decide)]

theorem l4_keep (b : Ref sig .tc) (hb : b ∉ l4_W) : W25 m ρ c (Proc.devRef .tc b) = W19 m ρ c (Proc.devRef .tc b) := ((l4_k m ρ c).trans (l4 m ρ c).2) b hb

end Cert.KernelIdeal.KFold

end
-- ==== Proof.RegBlend.lean ====
import proofs.«173378_j55121610277361_1_alg».proof.Proof.Gen.KernelIdeal.Frame
import proofs.«173378_j55121610277361_1_alg».proof.Proof.Math
import Idealize.ShloMosaic.Lib.Pipeline.Value

set_option maxRecDepth 16384

noncomputable section

namespace Cert.KernelIdeal.RegVal

open Cert.KernelIdeal Cert.KernelIdeal.Gen Idealize.ShloMosaic Idealize.ShloMosaic.TcCoe Idealize.SL.Sem Cert.Math
open Idealize.ShloMosaic.Pipeline (Dat Cfg Window)

variable (V : (c : Dev nD) → (b : Ref sig .tc) → Buf (Elt Ideal) ((c : Thread nD τ).loc b))

-- a single whole-block piece is its payload: 0.9 x + 0.1 y entry by entry
theorem blend_out (x0 x1 : Vec Ideal S5000x64 .f32) (j : S5000x64.Idx) :
    out12_2 (F := Ideal) x0 x1 j = c09 * x0 j + c01 * x1 j := by
  have hz : (![0, 0] : Fin 2 → Nat) = fun _ => 0 := funext fun a => by fin_cases a <;> rfl
  unfold out12_2 k12_pay1
  rw [View.canon_unit_zero hz, View.ld_unit_zero hz, View.ld_unit_zero hz, shapeCast_self, shapeCast_self]
  rfl

-- the three block rectangles at a point coincide, so block t of the blend is the blend of the blocks t
theorem blend_blk (p h0 : Mat 50000 64) (t : Fin grid12.N) :
    win12_2.cut (grid12.coords t)
        (out12_2 ((win12_0.blk t).view.read (Elt Ideal) p) ((win12_1.blk t).view.read (Elt Ideal) h0))
      = (win12_2.blk t).view.read (Elt Ideal) (Math.blend p h0) :=
  funext fun j => blend_out _ _ _

theorem blend_idx : ∀ t : Fin grid12.N, win12_2.index t 0 = t.val ∧ win12_2.index t 1 = 0 := by decide +kernel

-- row r lies in block r / 5000
theorem blend_cover (i : S50000x64.Idx) :
    ∃ t : Fin cfg12.N, (cfg12.win 2).flush t = true ∧ i ∈ ((cfg12.win 2).blk t).view.set := by
  have h0 : (i 0).val < 50000 := (i 0).isLt
  have h1 : (i 1).val < 64 := (i 1).isLt
  obtain ⟨t, ht⟩ : ∃ t : Fin cfg12.N, t.val = (i 0).val / 5000 := ⟨⟨(i 0).val / 5000, by show _ < 10; omega⟩, rfl⟩
  obtain ⟨e0, e1⟩ := blend_idx t
  refine ⟨t, flush12_2 t, ?_⟩
  show i ∈ ((View.whole main_v159).slice (win12_2.rect t)).set
  rw [View.set_slice_whole, Rect.mem_set_unit]
  intro a
  match a with
  | ⟨0, _⟩ => show win12_2.index t 0 * 5000 ≤ (i 0).val ∧ (i 0).val < win12_2.index t 0 * 5000 + 5000; omega
  | ⟨1, _⟩ => show win12_2.index t 1 * 64 ≤ (i 1).val ∧ (i 1).val < win12_2.index t 1 * 64 + 64; omega

-- launches 12 … 21 are one map on different arrays: the same blocks, the same payload
theorem reg12 (c : Dev nD) : (dat12 V c).arrAt 2 cfg12.N = Math.blend (V c main_v158) (V c main_v145) :=
  (dat12 V c).arrAt_eq_of_cover 2 _ (fun t _ => (congrArg _ (after12_2 V c t)).trans (blend_blk _ _ t)) blend_cover

theorem reg13 (c : Dev nD) : (dat13 V c).arrAt 2 cfg13.N = Math.blend (V c main_v172) (V c main_v145) :=
  (dat13 V c).arrAt_eq_of_cover 2 _ (fun t _ => (congrArg _ (after13_2 V c t)).trans (blend_blk _ _ t)) blend_cover

theorem reg14 (c : Dev nD) : (dat14 V c).arrAt 2 cfg14.N = Math.blend (V c main_v186) (V c main_v145) :=
  (dat14 V c).arrAt_eq_of_cover 2 _ (fun t _ => (congrArg _ (after14_2 V c t)).trans (blend_blk _ _ t)) blend_cover

theorem reg15 (c : Dev nD) : (dat15 V c).arrAt 2 cfg15.N = Math.blend (V c main_v200) (V c main_v145) :=
  (dat15 V c).arrAt_eq_of_cover 2 _ (fun t _ => (congrArg _ (after15_2 V c t)).trans (blend_blk _ _ t)) blend_cover

theorem reg16 (c : Dev nD) : (dat16 V c).arrAt 2 cfg16.N = Math.blend (V c main_v214) (V c main_v145) :=
  (dat16 V c).arrAt_eq_of_cover 2 _ (fun t _ => (congrArg _ (after16_2 V c t)).trans (blend_blk _ _ t)) blend_cover

theorem reg17 (c : Dev nD) : (dat17 V c).arrAt 2 cfg17.N = Math.blend (V c main_v228) (V c main_v145) :=
  (dat17 V c).arrAt_eq_of_cover 2 _ (fun t _ => (congrArg _ (after17_2 V c t)).trans (blend_blk _ _ t)) blend_cover

theorem reg18 (c : Dev nD) : (dat18 V c).arrAt 2 cfg18.N = Math.blend (V c main_v242) (V c main_v145) :=
  (dat18 V c).arrAt_eq_of_cover 2 _ (fun t _ => (congrArg _ (after18_2 V c t)).trans (blend_blk _ _ t)) blend_cover

theorem reg19 (c : Dev nD) : (dat19 V c).arrAt 2 cfg19.N = Math.blend (V c main_v256) (V c main_v145) :=
  (dat19 V c).arrAt_eq_of_cover 2 _ (fun t _ => (congrArg _ (after19_2 V c t)).trans (blend_blk _ _ t)) blend_cover

theorem reg20 (c : Dev nD) : (dat20 V c).arrAt 2 cfg20.N = Math.blend (V c main_v270) (V c main_v145) :=
  (dat20 V c).arrAt_eq_of_cover 2 _ (fun t _ => (congrArg _ (after20_2 V c t)).trans (blend_blk _ _ t)) blend_cover

theorem reg21 (c : Dev nD) : (dat21 V c).arrAt 2 cfg21.N = Math.blend (V c main_v284) (V c main_v145) :=
  (dat21 V c).arrAt_eq_of_cover 2 _ (fun t _ => (congrArg _ (after21_2 V c t)).trans (blend_blk _ _ t)) blend_cover

end Cert.KernelIdeal.RegVal

end
-- ==== Proof.KFA.lean ====
import proofs.«173378_j55121610277361_1_alg».proof.Proof.Gen.KernelIdeal.Frame
import proofs.«173378_j55121610277361_1_alg».proof.Proof.Gen.ReferenceIdeal
import proofs.«173378_j55121610277361_1_alg».proof.Proof.Results
import proofs.«173378_j55121610277361_1_alg».proof.Proof.RegBlend

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo

/-- every operation of `ops` writes inside the list `W` -/
abbrev a_Writes (ops : List (HloOp τ sig (Elt Ideal))) (W : List (Ref sig .tc)) : Prop :=
  ops.Forall fun op => op.writes ⊆ (W.map (Proc.devRef (τ := τ) .tc)).toFinset

theorem a_sub {W : List (Ref sig .tc)} {y : Ref sig .tc} (hy : y ∈ W) :
    ({Proc.devRef .tc y} : Finset (DevRef τ sig)) ⊆ (W.map (Proc.devRef (τ := τ) .tc)).toFinset :=
  Finset.singleton_subset_iff.2 (List.mem_toFinset.2 (List.mem_map_of_mem hy))

/-- operations writing only inside `W`, then a step changing only the buffers `arr`, all in `x :: W`, and not `x`: nothing outside `W` has changed -/
theorem a_step {V Wc : Valuation τ sig (Elt Ideal)} {ops : List (HloOp τ sig (Elt Ideal))} {W : List (Ref sig .tc)}
    {n : ℕ} {arr : Fin n → Ref sig .tc} {x b : Ref sig .tc} (hW : a_Writes ops W)
    (hne : ∀ b, (∀ w, arr w ≠ b) → Wc (Proc.devRef .tc b) = after ops V (Proc.devRef .tc b))
    (harr : ∀ w, arr w ∈ x :: W) (hin : Wc (Proc.devRef .tc x) = after ops V (Proc.devRef .tc x))
    (hb : b ∉ W) : Wc (Proc.devRef .tc b) = V (Proc.devRef .tc b) := by
  rw [← after_of_writes_sub ops V hW hb]
  by_cases h0 : b = x
  · exact h0 ▸ hin
  · exact hne b fun w e => (List.mem_cons.1 (e ▸ harr w)).elim h0 hb

abbrev a1_W : List (Ref sig .tc) :=
  [main_c_26, main_v146, main_v147, main_c_27, main_v148, main_v149, main_v150, main_v151, main_v152, main_v153,
   main_v154, main_v155, main_cst_28, main_v156, main_v157, main_v158, main_v159]

abbrev a2_W : List (Ref sig .tc) :=
  [main_c_29, main_v160, main_v161, main_c_30, main_v162, main_v163, main_v164, main_v165, main_v166, main_v167,
   main_v168, main_v169, main_cst_31, main_v170, main_v171, main_v172, main_v173]

abbrev a3_W : List (Ref sig .tc) :=
  [main_c_32, main_v174, main_v175, main_c_33, main_v176, main_v177, main_v178, main_v179, main_v180, main_v181,
   main_v182, main_v183, main_cst_34, main_v184, main_v185, main_v186, main_v187]

abbrev a4_W : List (Ref sig .tc) :=
  [main_c_35, main_v188, main_v189, main_c_36, main_v190, main_v191, main_v192, main_v193, main_v194, main_v195,
   main_v196, main_v197, main_cst_37, main_v198, main_v199, main_v200, main_v201]

abbrev a5_W : List (Ref sig .tc) :=
  [main_c_38, main_v202, main_v203, main_c_39, main_v204, main_v205, main_v206, main_v207, main_v208, main_v209,
   main_v210, main_v211, main_cst_40, main_v212, main_v213, main_v214, main_v215]

abbrev a6_W : List (Ref sig .tc) :=
  [main_c_41, main_v216, main_v217, main_c_42, main_v218, main_v219, main_v220, main_v221, main_v222, main_v223,
   main_v224, main_v225, main_cst_43, main_v226, main_v227, main_v228, main_v229]

abbrev a7_W : List (Ref sig .tc) :=
  [main_c_44, main_v230, main_v231, main_c_45, main_v232, main_v233, main_v234, main_v235, main_v236, main_v237,
   main_v238, main_v239, main_cst_46, main_v240, main_v241, main_v242, main_v243]

abbrev a8_W : List (Ref sig .tc) :=
  [main_c_47, main_v244, main_v245, main_c_48, main_v246, main_v247, main_v248, main_v249, main_v250, main_v251,
   main_v252, main_v253, main_cst_49, main_v254, main_v255, main_v256, main_v257]

abbrev a9_W : List (Ref sig .tc) :=
  [main_c_50, main_v258, main_v259, main_c_51, main_v260, main_v261, main_v262, main_v263, main_v264, main_v265,
   main_v266, main_v267, main_cst_52, main_v268, main_v269, main_v270, main_v271]

abbrev a10_W : List (Ref sig .tc) :=
  [main_c_53, main_v272, main_v273, main_c_54, main_v274, main_v275, main_v276, main_v277, main_v278, main_v279,
   main_v280, main_v281, main_cst_55, main_v282, main_v283, main_v284, main_v285]

theorem a_writes : a_Writes hostOps12 a1_W ∧ a_Writes hostOps13 a2_W ∧ a_Writes hostOps14 a3_W ∧ a_Writes hostOps15 a4_W ∧ a_Writes hostOps16 a5_W ∧ a_Writes hostOps17 a6_W ∧ a_Writes hostOps18 a7_W ∧ a_Writes hostOps19 a8_W ∧ a_Writes hostOps20 a9_W ∧ a_Writes hostOps21 a10_W := by
  refine ⟨?_, ?_, ?_, ?_, ?_, ?_, ?_, ?_, ?_, ?_⟩ <;> (repeat' apply And.intro) <;> exact a_sub (by decide)

variable (m : (ℓ : Loc nD τ sig) → Buf (Elt Ideal) ℓ) (ρ : Dev nD → PrngReg) (c : Dev nD)

theorem a1_out : W27 m ρ c (Proc.devRef .tc main_v159) = Cert.Math.blend (Cert.Spec.prop (W25 m ρ c (Proc.devRef .tc main_v3)) (W25 m ρ c (Proc.devRef .tc main_v6)) (W25 m ρ c (Proc.devRef .tc main_v29)) (W25 m ρ c (Proc.devRef .tc main_v145))) (W25 m ρ c (Proc.devRef .tc main_v145)) :=
  (W27_arr m ρ c 2).trans <| (RegVal.reg12 (V26 m ρ) c).trans <| by
    dsimp only [V26, W26]; after_results_simp; rfl

theorem a1_keep (b : Ref sig .tc) (hb : b ∉ a1_W) : W27 m ρ c (Proc.devRef .tc b) = W25 m ρ c (Proc.devRef .tc b) :=
  a_step a_writes.1 (W27_of_ne m ρ c) (by decide)
    ((W27_arr m ρ c 1).trans ((dat12 (V26 m ρ) c).arrAt_in 1 rfl cfg12.N)) hb

theorem a2_out : W29 m ρ c (Proc.devRef .tc main_v173) = Cert.Math.blend (Cert.Spec.prop (W27 m ρ c (Proc.devRef .tc main_v3)) (W27 m ρ c (Proc.devRef .tc main_v6)) (W27 m ρ c (Proc.devRef .tc main_v29)) (W27 m ρ c (Proc.devRef .tc main_v159))) (W27 m ρ c (Proc.devRef .tc main_v145)) :=
  (W29_arr m ρ c 2).trans <| (RegVal.reg13 (V28 m ρ) c).trans <| by
    dsimp only [V28, W28]; after_results_simp; rfl

theorem a2_keep (b : Ref sig .tc) (hb : b ∉ a2_W) : W29 m ρ c (Proc.devRef .tc b) = W27 m ρ c (Proc.devRef .tc b) :=
  a_step a_writes.2.1 (W29_of_ne m ρ c) (by decide)
    ((W29_arr m ρ c 1).trans ((dat13 (V28 m ρ) c).arrAt_in 1 rfl cfg13.N)) hb

theorem a3_out : W31 m ρ c (Proc.devRef .tc main_v187) = Cert.Math.blend (Cert.Spec.prop (W29 m ρ c (Proc.devRef .tc main_v3)) (W29 m ρ c (Proc.devRef .tc main_v6)) (W29 m ρ c (Proc.devRef .tc main_v29)) (W29 m ρ c (Proc.devRef .tc main_v173))) (W29 m ρ c (Proc.devRef .tc main_v145)) :=
  (W31_arr m ρ c 2).trans <| (RegVal.reg14 (V30 m ρ) c).trans <| by
    dsimp only [V30, W30]; after_results_simp; rfl

theorem a3_keep (b : Ref sig .tc) (hb : b ∉ a3_W) : W31 m ρ c (Proc.devRef .tc b) = W29 m ρ c (Proc.devRef .tc b) :=
  a_step a_writes.2.2.1 (W31_of_ne m ρ c) (by decide)
    ((W31_arr m ρ c 1).trans ((dat14 (V30 m ρ) c).arrAt_in 1 rfl cfg14.N)) hb

theorem a4_out : W33 m ρ c (Proc.devRef .tc main_v201) = Cert.Math.blend (Cert.Spec.prop (W31 m ρ c (Proc.devRef .tc main_v3)) (W31 m ρ c (Proc.devRef .tc main_v6)) (W31 m ρ c (Proc.devRef .tc main_v29)) (W31 m ρ c (Proc.devRef .tc main_v187))) (W31 m ρ c (Proc.devRef .tc main_v145)) :=
  (W33_arr m ρ c 2).trans <| (RegVal.reg15 (V32 m ρ) c).trans <| by
    dsimp only [V32, W32]; after_results_simp; rfl

theorem a4_keep (b : Ref sig .tc) (hb : b ∉ a4_W) : W33 m ρ c (Proc.devRef .tc b) = W31 m ρ c (Proc.devRef .tc b) :=
  a_step a_writes.2.2.2.1 (W33_of_ne m ρ c) (by decide)
    ((W33_arr m ρ c 1).trans ((dat15 (V32 m ρ) c).arrAt_in 1 rfl cfg15.N)) hb

theorem a5_out : W35 m ρ c (Proc.devRef .tc main_v215) = Cert.Math.blend (Cert.Spec.prop (W33 m ρ c (Proc.devRef .tc main_v3)) (W33 m ρ c (Proc.devRef .tc main_v6)) (W33 m ρ c (Proc.devRef .tc main_v29)) (W33 m ρ c (Proc.devRef .tc main_v201))) (W33 m ρ c (Proc.devRef .tc main_v145)) :=
  (W35_arr m ρ c 2).trans <| (RegVal.reg16 (V34 m ρ) c).trans <| by
    dsimp only [V34, W34]; after_results_simp; rfl

theorem a5_keep (b : Ref sig .tc) (hb : b ∉ a5_W) : W35 m ρ c (Proc.devRef .tc b) = W33 m ρ c (Proc.devRef .tc b) :=
  a_step a_writes.2.2.2.2.1 (W35_of_ne m ρ c) (by decide)
    ((W35_arr m ρ c 1).trans ((dat16 (V34 m ρ) c).arrAt_in 1 rfl cfg16.N)) hb

theorem a6_out : W37 m ρ c (Proc.devRef .tc main_v229) = Cert.Math.blend (Cert.Spec.prop (W35 m ρ c (Proc.devRef .tc main_v3)) (W35 m ρ c (Proc.devRef .tc main_v6)) (W35 m ρ c (Proc.devRef .tc main_v29)) (W35 m ρ c (Proc.devRef .tc main_v215))) (W35 m ρ c (Proc.devRef .tc main_v145)) :=
  (W37_arr m ρ c 2).trans <| (RegVal.reg17 (V36 m ρ) c).trans <| by
    dsimp only [V36, W36]; after_results_simp; rfl

theorem a6_keep (b : Ref sig .tc) (hb : b ∉ a6_W) : W37 m ρ c (Proc.devRef .tc b) = W35 m ρ c (Proc.devRef .tc b) :=
  a_step a_writes.2.2.2.2.2.1 (W37_of_ne m ρ c) (by decide)
    ((W37_arr m ρ c 1).trans ((dat17 (V36 m ρ) c).arrAt_in 1 rfl cfg17.N)) hb

theorem a7_out : W39 m ρ c (Proc.devRef .tc main_v243) = Cert.Math.blend (Cert.Spec.prop (W37 m ρ c (Proc.devRef .tc main_v3)) (W37 m ρ c (Proc.devRef .tc main_v6)) (W37 m ρ c (Proc.devRef .tc main_v29)) (W37 m ρ c (Proc.devRef .tc main_v229))) (W37 m ρ c (Proc.devRef .tc main_v145)) :=
  (W39_arr m ρ c 2).trans <| (RegVal.reg18 (V38 m ρ) c).trans <| by
    dsimp only [V38, W38]; after_results_simp; rfl

theorem a7_keep (b : Ref sig .tc) (hb : b ∉ a7_W) : W39 m ρ c (Proc.devRef .tc b) = W37 m ρ c (Proc.devRef .tc b) :=
  a_step a_writes.2.2.2.2.2.2.1 (W39_of_ne m ρ c) (by decide)
    ((W39_arr m ρ c 1).trans ((dat18 (V38 m ρ) c).arrAt_in 1 rfl cfg18.N)) hb

theorem a8_out : W41 m ρ c (Proc.devRef .tc main_v257) = Cert.Math.blend (Cert.Spec.prop (W39 m ρ c (Proc.devRef .tc main_v3)) (W39 m ρ c (Proc.devRef .tc main_v6)) (W39 m ρ c (Proc.devRef .tc main_v29)) (W39 m ρ c (Proc.devRef .tc main_v243))) (W39 m ρ c (Proc.devRef .tc main_v145)) :=
  (W41_arr m ρ c 2).trans <| (RegVal.reg19 (V40 m ρ) c).trans <| by
    dsimp only [V40, W40]; after_results_simp; rfl

theorem a8_keep (b : Ref sig .tc) (hb : b ∉ a8_W) : W41 m ρ c (Proc.devRef .tc b) = W39 m ρ c (Proc.devRef .tc b) :=
  a_step a_writes.2.2.2.2.2.2.2.1 (W41_of_ne m ρ c) (by decide)
    ((W41_arr m ρ c 1).trans ((dat19 (V40 m ρ) c).arrAt_in 1 rfl cfg19.N)) hb

theorem a9_out : W43 m ρ c (Proc.devRef .tc main_v271) = Cert.Math.blend (Cert.Spec.prop (W41 m ρ c (Proc.devRef .tc main_v3)) (W41 m ρ c (Proc.devRef .tc main_v6)) (W41 m ρ c (Proc.devRef .tc main_v29)) (W41 m ρ c (Proc.devRef .tc main_v257))) (W41 m ρ c (Proc.devRef .tc main_v145)) :=
  (W43_arr m ρ c 2).trans <| (RegVal.reg20 (V42 m ρ) c).trans <| by
    dsimp only [V42, W42]; after_results_simp; rfl

theorem a9_keep (b : Ref sig .tc) (hb : b ∉ a9_W) : W43 m ρ c (Proc.devRef .tc b) = W41 m ρ c (Proc.devRef .tc b) :=
  a_step a_writes.2.2.2.2.2.2.2.2.1 (W43_of_ne m ρ c) (by decide)
    ((W43_arr m ρ c 1).trans ((dat20 (V42 m ρ) c).arrAt_in 1 rfl cfg20.N)) hb

theorem a10_out : W45 m ρ c (Proc.devRef .tc main_v285) = Cert.Math.blend (Cert.Spec.prop (W43 m ρ c (Proc.devRef .tc main_v3)) (W43 m ρ c (Proc.devRef .tc main_v6)) (W43 m ρ c (Proc.devRef .tc main_v29)) (W43 m ρ c (Proc.devRef .tc main_v271))) (W43 m ρ c (Proc.devRef .tc main_v145)) :=
  (W45_arr m ρ c 2).trans <| (RegVal.reg21 (V44 m ρ) c).trans <| by
    dsimp only [V44, W44]; after_results_simp; rfl

theorem a10_keep (b : Ref sig .tc) (hb : b ∉ a10_W) : W45 m ρ c (Proc.devRef .tc b) = W43 m ρ c (Proc.devRef .tc b) :=
  a_step a_writes.2.2.2.2.2.2.2.2.2 (W45_of_ne m ρ c) (by decide)
    ((W45_arr m ρ c 1).trans ((dat21 (V44 m ρ) c).arrAt_in 1 rfl cfg21.N)) hb

end Cert.KernelIdeal.KFold

end
-- ==== Proof.Reg22.lean ====
import proofs.«173378_j55121610277361_1_alg».proof.Proof.Gen.KernelIdeal.Frame
import proofs.«173378_j55121610277361_1_alg».proof.Proof.Math
import proofs.«173378_j55121610277361_1_alg».proof.Proof.RegMat
import Idealize.ShloMosaic.Lib.ValueLayout
import Idealize.ShloMosaic.Lib.Pipeline.Value

/-! The last launch: its output array ends as the row-wise log-softmax of h W + b. -/

noncomputable section

namespace Cert.KernelIdeal.RegVal

open Cert.KernelIdeal.Gen Idealize.ShloMosaic Idealize.ShloMosaic.TcCoe Cert.Math
open Idealize.ShloMosaic.ValueIdx

open MatMul

namespace R22

/-- A per-row value as a column, through f entrywise, spread along the columns: at (p, q), f of row p's value. -/
theorem col_apply (f : EReal → EReal) (v : FVec Ideal S5000 .f32) (p : Fin 5000) (q : Fin 64) :
    broadcastTo S5000x64 (fun i => f (shapeCast S5000x1 v shapeCasts_S5000_S5000x1 i)) broadcasts_S5000x1_S5000x64 (ix2 p q)
      = f (v (ix1 p)) :=
  (broadcastTo_apply _ broadcasts_S5000x1_S5000x64 (ix2 p q) (ix2 p 0) (Fin.forall_fin_two.mpr ⟨rfl, rfl⟩)).trans
    (congrArg f (shapeCast_apply v shapeCasts_S5000_S5000x1 (ix2 p 0) (ix1 p)
      (by rw [Shape.rowMajor_val_one, Shape.rowMajor_val_two]; exact (Nat.mul_one _).symm)))

/-- A block numbered 0 on every axis sits in its array where it sits in itself. -/
theorem emb_id {S : Shape} {e : S.Idx → S.Idx} {i s : Fin S.rank → ℕ} (h : ∀ z a, (e z a : ℕ) = i a * s a + z a)
    (hi : ∀ a, i a = 0) (y : S.Idx) : e y = y :=
  funext fun a => Fin.ext (by rw [h, hi, Nat.zero_mul, Nat.zero_add])

/-- The index of row p with column k put back. -/
theorem lift_eq (p : Fin 5000) (k : Fin 64) : reduces_S5000x64_S5000.lift (ix1 p) k = ix2 p k := Shape.idx_ext₂ rfl rfl

/-- The rows' maxima from minus infinity, spread along the columns. -/
def mxb (l : FVec Ideal S5000x64 .f32) : FVec Ideal S5000x64 .f32 :=
  broadcastTo S5000x64 (shapeCast S5000x1
    (multiReduction .maximumf [1] S5000 l 0xFF800000#32 reduces_S5000x64_S5000 (.inl rfl) rfl) shapeCasts_S5000_S5000x1)
    broadcasts_S5000x1_S5000x64

/-- The row-wise log-softmax of a block, in the body's order of operations. -/
def lsb (l : FVec Ideal S5000x64 .f32) : FVec Ideal S5000x64 .f32 :=
  subf (subf l (mxb l))
    (broadcastTo S5000x64 (log (shapeCast S5000x1
      (multiReduction .add [1] S5000 (exp (subf l (mxb l))) 0x00000000#32 reduces_S5000x64_S5000 (.inl rfl) rfl)
      shapeCasts_S5000_S5000x1)) broadcasts_S5000x1_S5000x64)

/-- Entry (p, q) of it is (f q - max f) - log (sum over k of exp (f k - max f)) of row p, f, alone. -/
theorem lsb_apply (l : FVec Ideal S5000x64 .f32) (p : Fin 5000) (q : Fin 64) (f : Fin 64 → EReal) (hl : ∀ k, l (ix2 p k) = f k) :
    lsb l (ix2 p q) = (f q - Finset.univ.fold max cNegInf f) - Ideal.log (∑ k, Ideal.exp (f k - Finset.univ.fold max cNegInf f)) := by
  obtain rfl : (fun k => l (ix2 p k)) = f := funext hl
  have e : (l ∘ reduces_S5000x64_S5000.lift (ix1 p)) = fun k : Fin 64 => l (ix2 p k) := funext fun k => congrArg l (lift_eq p k)
  have hm (k : Fin 64) : mxb l (ix2 p k) = (Finset.univ : Finset (Fin 64)).fold max cNegInf fun k => l (ix2 p k) := by
    refine (col_apply (fun x => x) _ p k).trans
      ((Ideal.multiReduction_maximumf_single l 0xFF800000#32 reduces_S5000x64_S5000 (.inl rfl) rfl (ix1 p)).trans ?_)
    rw [e]; rfl
  refine congrArg₂ (· - ·) (congrArg (_ - ·) (hm q)) ((col_apply Ideal.log _ p q).trans (congrArg Ideal.log ?_))
  refine (Ideal.multiReduction_add_single _ 0x00000000#32 reduces_S5000x64_S5000 (.inl rfl) rfl (ix1 p)).trans (Finset.sum_congr rfl fun k _ => ?_)
  exact (congrArg (exp (subf l (mxb l))) (lift_eq p k)).trans (congrArg (fun m => Ideal.exp (l (ix2 p k) - m)) (hm k))

/-- A block of rows of the log-softmax of h W + b is the log-softmax of that block of rows of h times W, plus b. -/
theorem blk_ls (H : Mat 50000 64) (W : Mat 64 64) (Bv : Mat 1 64)
    {ex : S5000x64.Idx → S50000x64.Idx} {ew : S64x64.Idx → S64x64.Idx} {eb : S1x64.Idx → S1x64.Idx}
    {eo : S5000x64.Idx → S50000x64.Idx} {ix iw ib io : Fin 2 → ℕ}
    (hx : ∀ z a, (ex z a : ℕ) = ix a * ![5000, 64] a + z a) (hw : ∀ z a, (ew z a : ℕ) = iw a * ![64, 64] a + z a)
    (hb : ∀ z a, (eb z a : ℕ) = ib a * ![1, 64] a + z a) (ho : ∀ z a, (eo z a : ℕ) = io a * ![5000, 64] a + z a)
    (h0 : ix 0 = io 0) (h1 : ix 1 = 0) (h2 : ∀ a, iw a = 0) (h3 : ∀ a, ib a = 0) (h4 : io 1 = 0) (j : S5000x64.Idx) :
    out22_3 (F := Ideal) (fun z => H (ex z)) (fun z => W (ew z)) (fun z => Bv (eb z)) j = Math.fcLS H W Bv (eo j) := by
  have z : (![0, 0] : Fin 2 → ℕ) = fun _ => 0 := funext (Fin.forall_fin_two.mpr ⟨rfl, rfl⟩)
  obtain ⟨p, q, rfl⟩ : ∃ p q, j = ix2 p q := ⟨j 0, j 1, eq_ix2 j⟩
  have eO : eo (ix2 p q) = ix2 (eo (ix2 p q) 0) q := Shape.idx_ext₂ rfl (by rw [ho, h4, Nat.zero_mul, Nat.zero_add])
  unfold out22_3
  rw [View.canon_unit_zero z, View.ld_unit_zero z, View.ld_unit_zero z, View.ld_unit_zero z, eO]
  refine lsb_apply _ p q (fun k => Math.logits H W Bv (ix2 (eo (ix2 p q) 0) k)) fun k => ?_
  show matmul _ none _ _ _ (ix2 p k) + broadcastTo S5000x64 _ _ (ix2 p k) = _
  rw [shapeCast_self, shapeCast_self, broadcastTo_1b_ab_apply, emb_id hb h3]
  refine congrArg (· + _) ((mm_at _ _ _ _ _).trans (Finset.sum_congr rfl fun k' _ => ?_))
  exact congrArg₂ (fun a b => H a * W b)
    (Shape.idx_ext₂ (by rw [hx, ho, h0]) (by rw [hx, h1, Nat.zero_mul, Nat.zero_add])) (emb_id hw h2 _)

end R22

variable (V : (c : Dev nD) → (b : Ref sig .tc) → Buf (Elt Ideal) ((c : Thread nD τ).loc b))

theorem reg22 (c : Dev nD) : (dat22 V c).arrAt 3 cfg22.N = Math.fcLS (V c main_v285) (V c main_arg14) (V c main_v286) :=
  (dat22 V c).arrAt_eq_of_cover 3 _
    (fun t _ => (congrArg ((cfg22.win 3).cut (grid22.coords t)) (after22_3 V c t)).trans (funext
      (R22.blk_ls (V c main_v285) (V c main_arg14) (V c main_v286) (win22_0.rect_emb_val t) (win22_1.rect_emb_val t)
        (win22_2.rect_emb_val t) (win22_3.rect_emb_val t) rfl rfl (Fin.forall_fin_two.mpr ⟨rfl, rfl⟩) (Fin.forall_fin_two.mpr ⟨rfl, rfl⟩) rfl)))
    fun i => cover win22_3 flush22_3 (fun _ _ => rfl) (by decide) i (onto_rows onto i)

end Cert.KernelIdeal.RegVal

end
-- ==== Proof.KFC.lean ====
import proofs.«173378_j55121610277361_1_alg».proof.Proof.Gen.KernelIdeal.Frame
import proofs.«173378_j55121610277361_1_alg».proof.Proof.Gen.ReferenceIdeal
import proofs.«173378_j55121610277361_1_alg».proof.Proof.Results
import proofs.«173378_j55121610277361_1_alg».proof.Proof.Reg22

set_option maxRecDepth 16384

noncomputable section

namespace Cert.KernelIdeal.KFold

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

abbrev fc_H : List (Ref sig .tc) := [main_v286]

abbrev fc_W : List (Ref sig .tc) := [main_v286, main_v287]

theorem fc_host_writes : (hostOps22 : List (HloOp τ sig (Elt Ideal))).Forall fun op =>
    op.writes ⊆ (fc_H.map (Proc.devRef (τ := τ) .tc)).toFinset := by
  simp only [List.Forall]
  repeat' apply And.intro
  all_goals
    simp only [nullary_writes, unary_writes, binary_writes, ternary_writes, quaternary_writes, reshape_writes,
      binaryIndexed_writes, nary_writes, unaryIndexed_writes, Finset.singleton_subset_iff, List.mem_toFinset]
    exact List.mem_map_of_mem (by decide)

theorem fc_host_keep (b : Ref sig .tc) (hb : b ∉ fc_H) :
    W46 m ρ c (Proc.devRef .tc b) = W45 m ρ c (Proc.devRef .tc b) :=
  after_of_writes_sub hostOps22 _ fc_host_writes hb

theorem fc_row_apply (v : Cert.Math.Row 64) (h : S64.ShapeCasts S1x64) (j : S1x64.Idx) :
    shapeCast S1x64 v h j = Cert.Math.row v j := by
  show shapeCast S1x64 v h j = v (ValueIdx.ix1 (j 1))
  refine (shapeCast_addUnit_apply ![64] v h j).trans (congrArg v ?_)
  funext d
  match d with
  | ⟨0, _⟩ => rfl

theorem fc_bias : W46 m ρ c (Proc.devRef .tc main_v286) = Cert.Math.row (W45 m ρ c (Proc.devRef .tc main_arg15)) := by
  show StableHlo.after hostOps22 (W45 m ρ c) (Proc.devRef .tc main_v286) = _
  after_results
  funext j
  exact fc_row_apply _ _ j

theorem fc_out : W47 m ρ c (Proc.devRef .tc main_v287) = Cert.Math.fcLS (W45 m ρ c (Proc.devRef .tc main_v285)) (W45 m ρ c (Proc.devRef .tc main_arg14)) (Cert.Math.row (W45 m ρ c (Proc.devRef .tc main_arg15))) := by

  have hr : W47 m ρ c (Proc.devRef .tc main_v287)
      = Cert.Math.fcLS (W46 m ρ c (Proc.devRef .tc main_v285)) (W46 m ρ c (Proc.devRef .tc main_arg14))
          (W46 m ρ c (Proc.devRef .tc main_v286)) :=
    (W47_arr m ρ c 3).trans (Cert.KernelIdeal.RegVal.reg22 (V46 m ρ) c)

  rw [hr, fc_bias m ρ c, fc_host_keep m ρ c main_v285 (by decide), fc_host_keep m ρ c main_arg14 (by decide)]

theorem fc_keep (b : Ref sig .tc) (hb : b ∉ fc_W) : W47 m ρ c (Proc.devRef .tc b) = W45 m ρ c (Proc.devRef .tc b) := by
  have hH : b ∉ fc_H := fun h => hb (List.mem_append_left [main_v287] h)
  have h286 : b ≠ main_v286 := by rintro rfl; exact hb (by decide)
  have h287 : b ≠ main_v287 := by rintro rfl; exact hb (by decide)
  by_cases h285 : b = main_v285
  ·
    subst h285
    have hin : W47 m ρ c (Proc.devRef .tc main_v285) = W46 m ρ c (Proc.devRef .tc main_v285) :=
      (W47_arr m ρ c 0).trans (((dat22 (V46 m ρ) c).arrAt_in 0 rfl cfg22.N).trans (A_eq22 (V46 m ρ) c 0))
    rw [hin]; exact fc_host_keep m ρ c main_v285 hH
  · by_cases h14 : b = main_arg14
    ·
      subst h14
      have hin : W47 m ρ c (Proc.devRef .tc main_arg14) = W46 m ρ c (Proc.devRef .tc main_arg14) :=
        (W47_arr m ρ c 1).trans (((dat22 (V46 m ρ) c).arrAt_in 1 rfl cfg22.N).trans (A_eq22 (V46 m ρ) c 1))
      rw [hin]; exact fc_host_keep m ρ c main_arg14 hH
    ·
      rw [W47_of_ne m ρ c b (fun
        | 0 => fun e => h285 e.symm
        | 1 => fun e => h14 e.symm
        | 2 => fun e => h286 e.symm
        | 3 => fun e => h287 e.symm
        | ⟨_ + 4, h⟩ => absurd h (Nat.not_lt.2 (Nat.le_add_left _ _)))]
      exact fc_host_keep m ρ c b hH

end Cert.KernelIdeal.KFold

end
-- ==== Proof.KValue.lean ====
import proofs.«173378_j55121610277361_1_alg».proof.Proof.Gen.KernelIdeal.Frame
import proofs.«173378_j55121610277361_1_alg».proof.Proof.Gen.ReferenceIdeal
import proofs.«173378_j55121610277361_1_alg».proof.Proof.Results
import proofs.«173378_j55121610277361_1_alg».proof.Proof.KF0
import proofs.«173378_j55121610277361_1_alg».proof.Proof.KFL
import proofs.«173378_j55121610277361_1_alg».proof.Proof.KFA
import proofs.«173378_j55121610277361_1_alg».proof.Proof.KFC

set_option maxRecDepth 16384

noncomputable section

namespace Cert.KernelIdeal.KFold

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

macro "walk_back" : tactic => `(tactic| first
  | rw [fc_out]
  | rw [a10_out]
  | rw [a9_out]
  | rw [a8_out]
  | rw [a7_out]
  | rw [a6_out]
  | rw [a5_out]
  | rw [a4_out]
  | rw [a3_out]
  | rw [a2_out]
  | rw [a1_out]
  | rw [l4_out]
  | rw [l3_out]
  | rw [l2_out]
  | rw [l1_out]
  | rw [g0_src]
  | rw [g0_dst]
  | rw [g0_w]
  | (rw [fc_keep]; rotate_left; decide)
  | (rw [a10_keep]; rotate_left; decide)
  | (rw [a9_keep]; rotate_left; decide)
  | (rw [a8_keep]; rotate_left; decide)
  | (rw [a7_keep]; rotate_left; decide)
  | (rw [a6_keep]; rotate_left; decide)
  | (rw [a5_keep]; rotate_left; decide)
  | (rw [a4_keep]; rotate_left; decide)
  | (rw [a3_keep]; rotate_left; decide)
  | (rw [a2_keep]; rotate_left; decide)
  | (rw [a1_keep]; rotate_left; decide)
  | (rw [l4_keep]; rotate_left; decide)
  | (rw [l3_keep]; rotate_left; decide)
  | (rw [l2_keep]; rotate_left; decide)
  | (rw [l1_keep]; rotate_left; decide)
  | (rw [g0_keep]; rotate_left; decide)
  )

set_option maxHeartbeats 100000000 in
theorem kernel_value :
    W47 m ρ c (Proc.devRef .tc main_v287)
      = Cert.Results.kerResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  repeat walk_back
  rfl

end Cert.KernelIdeal.KFold

end
-- ==== Proof.RefOps.lean ====
import proofs.«173378_j55121610277361_1_alg».proof.ReferenceIdeal
import Idealize.ShloMosaic.Lib.StableHlo.Run

noncomputable section

namespace Cert.ReferenceIdeal.RefRun

open Cert.ReferenceIdeal Idealize.ShloMosaic Idealize.ShloMosaic.TcCoe Idealize.ShloMosaic.StableHlo

variable {F : FTy → Type} [FloatOps F] [Cert.ReferenceIdeal.Facts]
open Cert.ReferenceIdeal.Facts₀ Cert.ReferenceIdeal.Facts

abbrev ops0 : List (HloOp τ sig (Elt F)) :=
  [ StableHlo.nullary main_v0 (iotaInDim S50000 32 0),
    StableHlo.unary main_arg1 main_v1 ((extractStridedSlice S1x800000 ![0, 0] · slices_S2x800000_S1x800000_0_0)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0)),
    StableHlo.unary main_arg1 main_v4 ((extractStridedSlice S1x800000 ![1, 0] · slices_S2x800000_S1x800000_1_0)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0)),
    StableHlo.nullary main_cst (constant S_ .f32 0x3F800000#32),
    StableHlo.unary main_cst main_v7 (broadcastInDim S850000 ![] bcast_S_S850000),
    StableHlo.nullary main_cst_0 (constant S_ .f32 0x00000000#32),
    StableHlo.unary main_cst_0 main_v8 (broadcastInDim S50000 ![] bcast_S_S50000),
    StableHlo.unary main_v6 main_v9 (broadcastInDim S850000x1 ![0] bcast_S850000_S850000x1_0),
    StableHlo.ternary main_v8 main_v9 main_v7 main_v10 ((fun x i u => Host.scatterAdd scatter_S50000_S850000x1_S850000_n_0_0_1 x i u)),
    StableHlo.nullary main_cst_1 (constant S_ .f32 0x00000000#32),
    StableHlo.unary main_cst_1 main_v11 (broadcastInDim S50000 ![] bcast_S_S50000),
    StableHlo.binary main_v10 main_v11 main_v12 (cmpf .ogt),
    StableHlo.unary main_v10 main_v13 (Host.rsqrt),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select,
    StableHlo.nullary main_c (constantI S_ 32 0#32),
    StableHlo.unary main_c main_v15 (broadcastInDim S850000 ![] bcast_S_S850000),
    StableHlo.binary main_v3 main_v15 main_v16 (cmpi .slt),
    StableHlo.nullary main_c_3 (constantI S_ 32 50000#32),
    StableHlo.unary main_c_3 main_v17 (broadcastInDim S850000 ![] bcast_S_S850000),
    StableHlo.binary main_v3 main_v17 main_v18 (addi),
    StableHlo.ternary main_v16 main_v18 main_v3 main_v19 (select),
    StableHlo.unary main_v19 main_v20 (broadcastInDim S850000x1 ![0] bcast_S850000_S850000x1_0),
    StableHlo.binary main_v14 main_v20 main_v21 ((fun x i => Host.gather gather_S50000_S850000x1_S850000_n_0_n_n_0_1_1 x i)),
    StableHlo.nullary main_c_4 (constantI S_ 32 0#32),
    StableHlo.unary main_c_4 main_v22 (broadcastInDim S850000 ![] bcast_S_S850000),
    StableHlo.binary main_v6 main_v22 main_v23 (cmpi .slt),
    StableHlo.nullary main_c_5 (constantI S_ 32 50000#32),
    StableHlo.unary main_c_5 main_v24 (broadcastInDim S850000 ![] bcast_S_S850000),
    StableHlo.binary main_v6 main_v24 main_v25 (addi),
    StableHlo.ternary main_v23 main_v25 main_v6 main_v26 (select),
    StableHlo.unary main_v26 main_v27 (broadcastInDim S850000x1 ![0] bcast_S850000_S850000x1_0),
    StableHlo.binary main_v14 main_v27 main_v28 ((fun x i => Host.gather gather_S50000_S850000x1_S850000_n_0_n_n_0_1_1 x i)),
    StableHlo.binary main_v21 main_v28 main_v29 (mulf),
    StableHlo.binary main_arg0 main_arg2 main_v30 ((fun l r => Host.dotGeneral dot_S50000x128_S128x64_S50000x64_1_0_0_1_n_n none l r)),
    StableHlo.nullary main_c_6 (constantI S_ 32 0#32),
    StableHlo.unary main_c_6 main_v31 (broadcastInDim S850000 ![] bcast_S_S850000),
    StableHlo.binary main_v3 main_v31 main_v32 (cmpi .slt),
    StableHlo.nullary main_c_7 (constantI S_ 32 50000#32),
    StableHlo.unary main_c_7 main_v33 (broadcastInDim S850000 ![] bcast_S_S850000),
    StableHlo.binary main_v3 main_v33 main_v34 (addi),
    StableHlo.ternary main_v32 main_v34 main_v3 main_v35 (select),
    StableHlo.unary main_v35 main_v36 (broadcastInDim S850000x1 ![0] bcast_S850000_S850000x1_0),
    StableHlo.binary main_v30 main_v36 main_v37 ((fun x i => Host.gather gather_S50000x64_S850000x1_S850000x64_1_0_n_n_0_1_164 x i)),
    StableHlo.unary main_v29 main_v38 (broadcastInDim S850000x1 ![0] bcast_S850000_S850000x1_0),
    StableHlo.unary main_v38 main_v39 (broadcastInDim S850000x64 ![0, 1] bcast_S850000x1_S850000x64_0_1),
    StableHlo.binary main_v37 main_v39 main_v40 (mulf),
    StableHlo.nullary main_cst_8 (constant S_ .f32 0x00000000#32),
    StableHlo.unary main_cst_8 main_v41 (broadcastInDim S50000x64 ![] bcast_S_S50000x64),
    StableHlo.unary main_v6 main_v42 (broadcastInDim S850000x1 ![0] bcast_S850000_S850000x1_0),
    StableHlo.ternary main_v41 main_v42 main_v40 main_v43 ((fun x i u => Host.scatterAdd scatter_S50000x64_S850000x1_S850000x64_1_0_0_1 x i u)),
    StableHlo.unary main_arg3 main_v44 (broadcastInDim S1x64 ![1] bcast_S64_S1x64_1),
    StableHlo.unary main_v44 main_v45 (broadcastInDim S50000x64 ![0, 1] bcast_S1x64_S50000x64_0_1),
    StableHlo.binary main_v43 main_v45 main_v46 (addf),
    StableHlo.nullary main_cst_9 (constant S_ .f32 0x00000000#32),
    StableHlo.binary main_v46 main_cst_9 main_v47 ((fun x v => Host.reduceAdd x v reducesTo_S50000x64_S64_d0 h_S_)) ]

abbrev ops1 : List (HloOp τ sig (Elt F)) :=
  [ StableHlo.nullary main_cst_10 (constant S_ .f32 0x47435000#32),
    StableHlo.unary main_cst_10 main_v48 (broadcastInDim S64 ![] bcast_S_S64),
    StableHlo.binary main_v47 main_v48 main_v49 (Host.divf),
    StableHlo.nullary main_c_11 (constantI S_ 32 0#32),
    StableHlo.TRef.nullary main_call1.cst (constant S_ .f32 0x00000000#32),
    StableHlo.TRef.binary (.of main_v46 : StableHlo.TRef sig ⟨S50000x64, .f32⟩) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v46 : StableHlo.TRef sig ⟨S50000x64, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b),
    StableHlo.unary main_v49 main_v51 (broadcastInDim S1x64 ![1] bcast_S64_S1x64_1),
    StableHlo.unary main_v51 main_v52 (broadcastInDim S50000x64 ![0, 1] bcast_S1x64_S50000x64_0_1),
    StableHlo.binary main_v46 main_v52 main_v53 (subf),
    StableHlo.unary main_arg8 main_v54 (broadcastInDim S1x64 ![1] bcast_S64_S1x64_1),
    StableHlo.unary main_v54 main_v55 (broadcastInDim S50000x64 ![0, 1] bcast_S1x64_S50000x64_0_1),
    StableHlo.binary main_v55 main_v53 main_v56 (mulf),
    StableHlo.nullary main_cst_12 (constant S_ .f32 0x3727C5AC#32),
    StableHlo.unary main_cst_12 main_v57 (broadcastInDim S64 ![] bcast_S_S64),
    StableHlo.binary main_v50 main_v57 main_v58 (addf),
    StableHlo.unary main_v58 main_v59 (Host.rsqrt),
    StableHlo.unary main_v59 main_v60 (broadcastInDim S1x64 ![1] bcast_S64_S1x64_1),
    StableHlo.unary main_v60 main_v61 (broadcastInDim S50000x64 ![0, 1] bcast_S1x64_S50000x64_0_1),
    StableHlo.binary main_v56 main_v61 main_v62 (mulf),
    StableHlo.unary main_arg9 main_v63 (broadcastInDim S1x64 ![1] bcast_S64_S1x64_1),
    StableHlo.unary main_v63 main_v64 (broadcastInDim S50000x64 ![0, 1] bcast_S1x64_S50000x64_0_1),
    StableHlo.binary main_v62 main_v64 main_v65 (addf),
    StableHlo.TRef.nullary main_call2.cst (constant S_ .f32 0x00000000#32),
    StableHlo.TRef.unary main_call2.cst main_call2.v0 (broadcastInDim S50000x64 ![] bcast_S_S50000x64),
    StableHlo.TRef.binary (.of main_v65 : StableHlo.TRef sig ⟨S50000x64, .f32⟩) main_call2.v0 main_call2.v1 maximumf,
    StableHlo.binary main_v66 main_arg4 main_v67 ((fun l r => Host.dotGeneral dot_S50000x64_S64x64_S50000x64_1_0_0_1_n_n none l r)),
    StableHlo.nullary main_c_13 (constantI S_ 32 0#32),
    StableHlo.unary main_c_13 main_v68 (broadcastInDim S850000 ![] bcast_S_S850000),
    StableHlo.binary main_v3 main_v68 main_v69 (cmpi .slt),
    StableHlo.nullary main_c_14 (constantI S_ 32 50000#32),
    StableHlo.unary main_c_14 main_v70 (broadcastInDim S850000 ![] bcast_S_S850000),
    StableHlo.binary main_v3 main_v70 main_v71 (addi),
    StableHlo.ternary main_v69 main_v71 main_v3 main_v72 (select),
    StableHlo.unary main_v72 main_v73 (broadcastInDim S850000x1 ![0] bcast_S850000_S850000x1_0),
    StableHlo.binary main_v67 main_v73 main_v74 ((fun x i => Host.gather gather_S50000x64_S850000x1_S850000x64_1_0_n_n_0_1_164 x i)),
    StableHlo.unary main_v29 main_v75 (broadcastInDim S850000x1 ![0] bcast_S850000_S850000x1_0),
    StableHlo.unary main_v75 main_v76 (broadcastInDim S850000x64 ![0, 1] bcast_S850000x1_S850000x64_0_1),
    StableHlo.binary main_v74 main_v76 main_v77 (mulf),
    StableHlo.nullary main_cst_15 (constant S_ .f32 0x00000000#32),
    StableHlo.unary main_cst_15 main_v78 (broadcastInDim S50000x64 ![] bcast_S_S50000x64),
    StableHlo.unary main_v6 main_v79 (broadcastInDim S850000x1 ![0] bcast_S850000_S850000x1_0),
    StableHlo.ternary main_v78 main_v79 main_v77 main_v80 ((fun x i u => Host.scatterAdd scatter_S50000x64_S850000x1_S850000x64_1_0_0_1 x i u)),
    StableHlo.unary main_arg5 main_v81 (broadcastInDim S1x64 ![1] bcast_S64_S1x64_1),
    StableHlo.unary main_v81 main_v82 (broadcastInDim S50000x64 ![0, 1] bcast_S1x64_S50000x64_0_1),
    StableHlo.binary main_v80 main_v82 main_v83 (addf),
    StableHlo.nullary main_cst_16 (constant S_ .f32 0x00000000#32),
    StableHlo.binary main_v83 main_cst_16 main_v84 ((fun x v => Host.reduceAdd x v reducesTo_S50000x64_S64_d0 h_S_)),
    StableHlo.nullary main_cst_17 (constant S_ .f32 0x47435000#32),
    StableHlo.unary main_cst_17 main_v85 (broadcastInDim S64 ![] bcast_S_S64),
    StableHlo.binary main_v84 main_v85 main_v86 (Host.divf),
    StableHlo.nullary main_c_18 (constantI S_ 32 0#32),
    StableHlo.TRef.nullary main_call3.cst (constant S_ .f32 0x00000000#32),
    StableHlo.TRef.binary (.of main_v83 : StableHlo.TRef sig ⟨S50000x64, .f32⟩) main_call3.cst main_call3.v0 (fun x v => Host.reduceAdd x v reducesTo_S50000x64_S64_d0 h_S_),
    StableHlo.TRef.unary main_call3.v0 main_call3.v1 (broadcastInDim S1x64 ![1] bcast_S64_S1x64_1),
    StableHlo.TRef.nullary main_call3.cst_0 (constant S_ .f32 0x47435000#32),
    StableHlo.TRef.unary main_call3.cst_0 main_call3.v2 (broadcastInDim S1x64 ![] bcast_S_S1x64),
    StableHlo.TRef.binary main_call3.v1 main_call3.v2 main_call3.v3 Host.divf,
    StableHlo.TRef.unary main_call3.v3 main_call3.v4 (broadcastInDim S50000x64 ![0, 1] bcast_S1x64_S50000x64_0_1),
    StableHlo.TRef.binary (.of main_v83 : StableHlo.TRef sig ⟨S50000x64, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47435000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x64_S64_d0 h_S_),
    StableHlo.TRef.unary main_call3.v8 main_call3.v10 (broadcastInDim S64 ![] bcast_S_S64),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S64 ![] bcast_S_S64),
    StableHlo.TRef.ternary main_call3.v12 main_call3.v11 main_call3.call0.v1 main_call3.call0.v2 (fun p a b => select (broadcastInDim S64 ![] bcast_S_S64 p) a b),
    StableHlo.unary main_v86 main_v88 (broadcastInDim S1x64 ![1] bcast_S64_S1x64_1),
    StableHlo.unary main_v88 main_v89 (broadcastInDim S50000x64 ![0, 1] bcast_S1x64_S50000x64_0_1),
    StableHlo.binary main_v83 main_v89 main_v90 (subf),
    StableHlo.unary main_arg10 main_v91 (broadcastInDim S1x64 ![1] bcast_S64_S1x64_1),
    StableHlo.unary main_v91 main_v92 (broadcastInDim S50000x64 ![0, 1] bcast_S1x64_S50000x64_0_1),
    StableHlo.binary main_v92 main_v90 main_v93 (mulf),
    StableHlo.nullary main_cst_19 (constant S_ .f32 0x3727C5AC#32),
    StableHlo.unary main_cst_19 main_v94 (broadcastInDim S64 ![] bcast_S_S64),
    StableHlo.binary main_v87 main_v94 main_v95 (addf),
    StableHlo.unary main_v95 main_v96 (Host.rsqrt),
    StableHlo.unary main_v96 main_v97 (broadcastInDim S1x64 ![1] bcast_S64_S1x64_1) ]

abbrev ops2 : List (HloOp τ sig (Elt F)) :=
  [ StableHlo.unary main_v97 main_v98 (broadcastInDim S50000x64 ![0, 1] bcast_S1x64_S50000x64_0_1),
    StableHlo.binary main_v93 main_v98 main_v99 (mulf),
    StableHlo.unary main_arg11 main_v100 (broadcastInDim S1x64 ![1] bcast_S64_S1x64_1),
    StableHlo.unary main_v100 main_v101 (broadcastInDim S50000x64 ![0, 1] bcast_S1x64_S50000x64_0_1),
    StableHlo.binary main_v99 main_v101 main_v102 (addf),
    StableHlo.TRef.nullary main_call4.cst (constant S_ .f32 0x00000000#32),
    StableHlo.TRef.unary main_call4.cst main_call4.v0 (broadcastInDim S50000x64 ![] bcast_S_S50000x64),
    StableHlo.TRef.binary (.of main_v102 : StableHlo.TRef sig ⟨S50000x64, .f32⟩) main_call4.v0 main_call4.v1 maximumf,
    StableHlo.unary main_arg6 main_v104 ((extractStridedSlice S1x64x64 ![0, 0, 0] · slices_S2x64x64_S1x64x64_0_0_0)),
    StableHlo.reshape main_v104 main_v105 rfl shapeCasts_S1x64x64_S64x64,
    StableHlo.binary main_v103 main_v105 main_v106 ((fun l r => Host.dotGeneral dot_S50000x64_S64x64_S50000x64_1_0_0_1_n_n none l r)),
    StableHlo.nullary main_c_20 (constantI S_ 32 0#32),
    StableHlo.unary main_c_20 main_v107 (broadcastInDim S850000 ![] bcast_S_S850000),
    StableHlo.binary main_v3 main_v107 main_v108 (cmpi .slt),
    StableHlo.nullary main_c_21 (constantI S_ 32 50000#32),
    StableHlo.unary main_c_21 main_v109 (broadcastInDim S850000 ![] bcast_S_S850000),
    StableHlo.binary main_v3 main_v109 main_v110 (addi),
    StableHlo.ternary main_v108 main_v110 main_v3 main_v111 (select),
    StableHlo.unary main_v111 main_v112 (broadcastInDim S850000x1 ![0] bcast_S850000_S850000x1_0),
    StableHlo.binary main_v106 main_v112 main_v113 ((fun x i => Host.gather gather_S50000x64_S850000x1_S850000x64_1_0_n_n_0_1_164 x i)),
    StableHlo.unary main_v29 main_v114 (broadcastInDim S850000x1 ![0] bcast_S850000_S850000x1_0),
    StableHlo.unary main_v114 main_v115 (broadcastInDim S850000x64 ![0, 1] bcast_S850000x1_S850000x64_0_1),
    StableHlo.binary main_v113 main_v115 main_v116 (mulf),
    StableHlo.nullary main_cst_22 (constant S_ .f32 0x00000000#32),
    StableHlo.unary main_cst_22 main_v117 (broadcastInDim S50000x64 ![] bcast_S_S50000x64),
    StableHlo.unary main_v6 main_v118 (broadcastInDim S850000x1 ![0] bcast_S850000_S850000x1_0),
    StableHlo.ternary main_v117 main_v118 main_v116 main_v119 ((fun x i u => Host.scatterAdd scatter_S50000x64_S850000x1_S850000x64_1_0_0_1 x i u)),
    StableHlo.unary main_arg7 main_v120 ((extractStridedSlice S1x64 ![0, 0] · slices_S2x64_S1x64_0_0)),
    StableHlo.reshape main_v120 main_v121 rfl shapeCasts_S1x64_S64,
    StableHlo.unary main_v121 main_v122 (broadcastInDim S1x64 ![1] bcast_S64_S1x64_1),
    StableHlo.unary main_v122 main_v123 (broadcastInDim S50000x64 ![0, 1] bcast_S1x64_S50000x64_0_1),
    StableHlo.binary main_v119 main_v123 main_v124 (addf),
    StableHlo.nullary main_cst_23 (constant S_ .f32 0x00000000#32),
    StableHlo.binary main_v124 main_cst_23 main_v125 ((fun x v => Host.reduceAdd x v reducesTo_S50000x64_S64_d0 h_S_)),
    StableHlo.nullary main_cst_24 (constant S_ .f32 0x47435000#32),
    StableHlo.unary main_cst_24 main_v126 (broadcastInDim S64 ![] bcast_S_S64),
    StableHlo.binary main_v125 main_v126 main_v127 (Host.divf),
    StableHlo.nullary main_c_25 (constantI S_ 32 0#32),
    StableHlo.TRef.nullary main_call5.cst (constant S_ .f32 0x00000000#32),
    StableHlo.TRef.binary (.of main_v124 : StableHlo.TRef sig ⟨S50000x64, .f32⟩) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v124 : StableHlo.TRef sig ⟨S50000x64, .f32⟩) main_call5.v4 main_call5.v5 subf,
    StableHlo.TRef.binary main_call5.v5 main_call5.v5 main_call5.v6 mulf,
    StableHlo.TRef.unary (.of main_c_25 : StableHlo.TRef sig ⟨S_, .i32⟩) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b),
    StableHlo.unary main_v127 main_v129 (broadcastInDim S1x64 ![1] bcast_S64_S1x64_1),
    StableHlo.unary main_v129 main_v130 (broadcastInDim S50000x64 ![0, 1] bcast_S1x64_S50000x64_0_1),
    StableHlo.binary main_v124 main_v130 main_v131 (subf),
    StableHlo.unary main_arg12 main_v132 (broadcastInDim S1x64 ![1] bcast_S64_S1x64_1),
    StableHlo.unary main_v132 main_v133 (broadcastInDim S50000x64 ![0, 1] bcast_S1x64_S50000x64_0_1),
    StableHlo.binary main_v133 main_v131 main_v134 (mulf),
    StableHlo.nullary main_cst_26 (constant S_ .f32 0x3727C5AC#32),
    StableHlo.unary main_cst_26 main_v135 (broadcastInDim S64 ![] bcast_S_S64),
    StableHlo.binary main_v128 main_v135 main_v136 (addf),
    StableHlo.unary main_v136 main_v137 (Host.rsqrt),
    StableHlo.unary main_v137 main_v138 (broadcastInDim S1x64 ![1] bcast_S64_S1x64_1),
    StableHlo.unary main_v138 main_v139 (broadcastInDim S50000x64 ![0, 1] bcast_S1x64_S50000x64_0_1),
    StableHlo.binary main_v134 main_v139 main_v140 (mulf),
    StableHlo.unary main_arg13 main_v141 (broadcastInDim S1x64 ![1] bcast_S64_S1x64_1),
    StableHlo.unary main_v141 main_v142 (broadcastInDim S50000x64 ![0, 1] bcast_S1x64_S50000x64_0_1),
    StableHlo.binary main_v140 main_v142 main_v143 (addf),
    StableHlo.TRef.nullary main_call6.cst (constant S_ .f32 0x00000000#32),
    StableHlo.TRef.unary main_call6.cst main_call6.v0 (broadcastInDim S50000x64 ![] bcast_S_S50000x64),
    StableHlo.TRef.binary (.of main_v143 : StableHlo.TRef sig ⟨S50000x64, .f32⟩) main_call6.v0 main_call6.v1 maximumf,
    StableHlo.unary main_arg6 main_v145 ((extractStridedSlice S1x64x64 ![1, 0, 0] · slices_S2x64x64_S1x64x64_1_0_0)),
    StableHlo.reshape main_v145 main_v146 rfl shapeCasts_S1x64x64_S64x64,
    StableHlo.binary main_v144 main_v146 main_v147 ((fun l r => Host.dotGeneral dot_S50000x64_S64x64_S50000x64_1_0_0_1_n_n none l r)),
    StableHlo.nullary main_c_27 (constantI S_ 32 0#32),
    StableHlo.unary main_c_27 main_v148 (broadcastInDim S850000 ![] bcast_S_S850000),
    StableHlo.binary main_v3 main_v148 main_v149 (cmpi .slt) ]

abbrev ops3 : List (HloOp τ sig (Elt F)) :=
  [ StableHlo.nullary main_c_28 (constantI S_ 32 50000#32),
    StableHlo.unary main_c_28 main_v150 (broadcastInDim S850000 ![] bcast_S_S850000),
    StableHlo.binary main_v3 main_v150 main_v151 (addi),
    StableHlo.ternary main_v149 main_v151 main_v3 main_v152 (select),
    StableHlo.unary main_v152 main_v153 (broadcastInDim S850000x1 ![0] bcast_S850000_S850000x1_0),
    StableHlo.binary main_v147 main_v153 main_v154 ((fun x i => Host.gather gather_S50000x64_S850000x1_S850000x64_1_0_n_n_0_1_164 x i)),
    StableHlo.unary main_v29 main_v155 (broadcastInDim S850000x1 ![0] bcast_S850000_S850000x1_0),
    StableHlo.unary main_v155 main_v156 (broadcastInDim S850000x64 ![0, 1] bcast_S850000x1_S850000x64_0_1),
    StableHlo.binary main_v154 main_v156 main_v157 (mulf),
    StableHlo.nullary main_cst_29 (constant S_ .f32 0x00000000#32),
    StableHlo.unary main_cst_29 main_v158 (broadcastInDim S50000x64 ![] bcast_S_S50000x64),
    StableHlo.unary main_v6 main_v159 (broadcastInDim S850000x1 ![0] bcast_S850000_S850000x1_0),
    StableHlo.ternary main_v158 main_v159 main_v157 main_v160 ((fun x i u => Host.scatterAdd scatter_S50000x64_S850000x1_S850000x64_1_0_0_1 x i u)),
    StableHlo.unary main_arg7 main_v161 ((extractStridedSlice S1x64 ![1, 0] · slices_S2x64_S1x64_1_0)),
    StableHlo.reshape main_v161 main_v162 rfl shapeCasts_S1x64_S64,
    StableHlo.unary main_v162 main_v163 (broadcastInDim S1x64 ![1] bcast_S64_S1x64_1),
    StableHlo.unary main_v163 main_v164 (broadcastInDim S50000x64 ![0, 1] bcast_S1x64_S50000x64_0_1),
    StableHlo.binary main_v160 main_v164 main_v165 (addf),
    StableHlo.nullary main_cst_30 (constant S_ .f32 0x00000000#32),
    StableHlo.binary main_v165 main_cst_30 main_v166 ((fun x v => Host.reduceAdd x v reducesTo_S50000x64_S64_d0 h_S_)),
    StableHlo.nullary main_cst_31 (constant S_ .f32 0x47435000#32),
    StableHlo.unary main_cst_31 main_v167 (broadcastInDim S64 ![] bcast_S_S64),
    StableHlo.binary main_v166 main_v167 main_v168 (Host.divf),
    StableHlo.nullary main_c_32 (constantI S_ 32 0#32),
    StableHlo.TRef.nullary main_call7.cst (constant S_ .f32 0x00000000#32),
    StableHlo.TRef.binary (.of main_v165 : StableHlo.TRef sig ⟨S50000x64, .f32⟩) main_call7.cst main_call7.v0 (fun x v => Host.reduceAdd x v reducesTo_S50000x64_S64_d0 h_S_),
    StableHlo.TRef.unary main_call7.v0 main_call7.v1 (broadcastInDim S1x64 ![1] bcast_S64_S1x64_1),
    StableHlo.TRef.nullary main_call7.cst_0 (constant S_ .f32 0x47435000#32),
    StableHlo.TRef.unary main_call7.cst_0 main_call7.v2 (broadcastInDim S1x64 ![] bcast_S_S1x64),
    StableHlo.TRef.binary main_call7.v1 main_call7.v2 main_call7.v3 Host.divf,
    StableHlo.TRef.unary main_call7.v3 main_call7.v4 (broadcastInDim S50000x64 ![0, 1] bcast_S1x64_S50000x64_0_1),
    StableHlo.TRef.binary (.of main_v165 : StableHlo.TRef sig ⟨S50000x64, .f32⟩) main_call7.v4 main_call7.v5 subf,
    StableHlo.TRef.binary main_call7.v5 main_call7.v5 main_call7.v6 mulf,
    StableHlo.TRef.unary (.of main_c_32 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x64_S64_d0 h_S_),
    StableHlo.TRef.unary main_call7.v8 main_call7.v10 (broadcastInDim S64 ![] bcast_S_S64),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S64 ![] bcast_S_S64),
    StableHlo.TRef.ternary main_call7.v12 main_call7.v11 main_call7.call0.v1 main_call7.call0.v2 (fun p a b => select (broadcastInDim S64 ![] bcast_S_S64 p) a b),
    StableHlo.unary main_v168 main_v170 (broadcastInDim S1x64 ![1] bcast_S64_S1x64_1),
    StableHlo.unary main_v170 main_v171 (broadcastInDim S50000x64 ![0, 1] bcast_S1x64_S50000x64_0_1),
    StableHlo.binary main_v165 main_v171 main_v172 (subf),
    StableHlo.unary main_arg12 main_v173 (broadcastInDim S1x64 ![1] bcast_S64_S1x64_1),
    StableHlo.unary main_v173 main_v174 (broadcastInDim S50000x64 ![0, 1] bcast_S1x64_S50000x64_0_1),
    StableHlo.binary main_v174 main_v172 main_v175 (mulf),
    StableHlo.nullary main_cst_33 (constant S_ .f32 0x3727C5AC#32),
    StableHlo.unary main_cst_33 main_v176 (broadcastInDim S64 ![] bcast_S_S64),
    StableHlo.binary main_v169 main_v176 main_v177 (addf),
    StableHlo.unary main_v177 main_v178 (Host.rsqrt),
    StableHlo.unary main_v178 main_v179 (broadcastInDim S1x64 ![1] bcast_S64_S1x64_1),
    StableHlo.unary main_v179 main_v180 (broadcastInDim S50000x64 ![0, 1] bcast_S1x64_S50000x64_0_1),
    StableHlo.binary main_v175 main_v180 main_v181 (mulf),
    StableHlo.unary main_arg13 main_v182 (broadcastInDim S1x64 ![1] bcast_S64_S1x64_1),
    StableHlo.unary main_v182 main_v183 (broadcastInDim S50000x64 ![0, 1] bcast_S1x64_S50000x64_0_1),
    StableHlo.binary main_v181 main_v183 main_v184 (addf),
    StableHlo.TRef.nullary main_call8.cst (constant S_ .f32 0x00000000#32),
    StableHlo.TRef.unary main_call8.cst main_call8.v0 (broadcastInDim S50000x64 ![] bcast_S_S50000x64),
    StableHlo.TRef.binary (.of main_v184 : StableHlo.TRef sig ⟨S50000x64, .f32⟩) main_call8.v0 main_call8.v1 maximumf,
    StableHlo.nullary main_c_34 (constantI S_ 32 0#32),
    StableHlo.unary main_c_34 main_v186 (broadcastInDim S850000 ![] bcast_S_S850000),
    StableHlo.binary main_v3 main_v186 main_v187 (cmpi .slt),
    StableHlo.nullary main_c_35 (constantI S_ 32 50000#32),
    StableHlo.unary main_c_35 main_v188 (broadcastInDim S850000 ![] bcast_S_S850000),
    StableHlo.binary main_v3 main_v188 main_v189 (addi),
    StableHlo.ternary main_v187 main_v189 main_v3 main_v190 (select),
    StableHlo.unary main_v190 main_v191 (broadcastInDim S850000x1 ![0] bcast_S850000_S850000x1_0),
    StableHlo.binary main_v185 main_v191 main_v192 ((fun x i => Host.gather gather_S50000x64_S850000x1_S850000x64_1_0_n_n_0_1_164 x i)),
    StableHlo.unary main_v29 main_v193 (broadcastInDim S850000x1 ![0] bcast_S850000_S850000x1_0),
    StableHlo.unary main_v193 main_v194 (broadcastInDim S850000x64 ![0, 1] bcast_S850000x1_S850000x64_0_1),
    StableHlo.binary main_v192 main_v194 main_v195 (mulf),
    StableHlo.nullary main_cst_36 (constant S_ .f32 0x00000000#32),
    StableHlo.unary main_cst_36 main_v196 (broadcastInDim S50000x64 ![] bcast_S_S50000x64),
    StableHlo.unary main_v6 main_v197 (broadcastInDim S850000x1 ![0] bcast_S850000_S850000x1_0),
    StableHlo.ternary main_v196 main_v197 main_v195 main_v198 ((fun x i u => Host.scatterAdd scatter_S50000x64_S850000x1_S850000x64_1_0_0_1 x i u)),
    StableHlo.nullary main_cst_37 (constant S_ .f32 0x3F666666#32),
    StableHlo.unary main_cst_37 main_v199 (broadcastInDim S50000x64 ![] bcast_S_S50000x64) ]

abbrev ops4 : List (HloOp τ sig (Elt F)) :=
  [ StableHlo.binary main_v199 main_v198 main_v200 (mulf),
    StableHlo.nullary main_cst_38 (constant S_ .f32 0x3DCCCCCD#32),
    StableHlo.unary main_cst_38 main_v201 (broadcastInDim S50000x64 ![] bcast_S_S50000x64),
    StableHlo.binary main_v201 main_v185 main_v202 (mulf),
    StableHlo.binary main_v200 main_v202 main_v203 (addf),
    StableHlo.nullary main_c_39 (constantI S_ 32 0#32),
    StableHlo.unary main_c_39 main_v204 (broadcastInDim S850000 ![] bcast_S_S850000),
    StableHlo.binary main_v3 main_v204 main_v205 (cmpi .slt),
    StableHlo.nullary main_c_40 (constantI S_ 32 50000#32),
    StableHlo.unary main_c_40 main_v206 (broadcastInDim S850000 ![] bcast_S_S850000),
    StableHlo.binary main_v3 main_v206 main_v207 (addi),
    StableHlo.ternary main_v205 main_v207 main_v3 main_v208 (select),
    StableHlo.unary main_v208 main_v209 (broadcastInDim S850000x1 ![0] bcast_S850000_S850000x1_0),
    StableHlo.binary main_v203 main_v209 main_v210 ((fun x i => Host.gather gather_S50000x64_S850000x1_S850000x64_1_0_n_n_0_1_164 x i)),
    StableHlo.unary main_v29 main_v211 (broadcastInDim S850000x1 ![0] bcast_S850000_S850000x1_0),
    StableHlo.unary main_v211 main_v212 (broadcastInDim S850000x64 ![0, 1] bcast_S850000x1_S850000x64_0_1),
    StableHlo.binary main_v210 main_v212 main_v213 (mulf),
    StableHlo.nullary main_cst_41 (constant S_ .f32 0x00000000#32),
    StableHlo.unary main_cst_41 main_v214 (broadcastInDim S50000x64 ![] bcast_S_S50000x64),
    StableHlo.unary main_v6 main_v215 (broadcastInDim S850000x1 ![0] bcast_S850000_S850000x1_0),
    StableHlo.ternary main_v214 main_v215 main_v213 main_v216 ((fun x i u => Host.scatterAdd scatter_S50000x64_S850000x1_S850000x64_1_0_0_1 x i u)),
    StableHlo.nullary main_cst_42 (constant S_ .f32 0x3F666666#32),
    StableHlo.unary main_cst_42 main_v217 (broadcastInDim S50000x64 ![] bcast_S_S50000x64),
    StableHlo.binary main_v217 main_v216 main_v218 (mulf),
    StableHlo.nullary main_cst_43 (constant S_ .f32 0x3DCCCCCD#32),
    StableHlo.unary main_cst_43 main_v219 (broadcastInDim S50000x64 ![] bcast_S_S50000x64),
    StableHlo.binary main_v219 main_v185 main_v220 (mulf),
    StableHlo.binary main_v218 main_v220 main_v221 (addf),
    StableHlo.nullary main_c_44 (constantI S_ 32 0#32),
    StableHlo.unary main_c_44 main_v222 (broadcastInDim S850000 ![] bcast_S_S850000),
    StableHlo.binary main_v3 main_v222 main_v223 (cmpi .slt),
    StableHlo.nullary main_c_45 (constantI S_ 32 50000#32),
    StableHlo.unary main_c_45 main_v224 (broadcastInDim S850000 ![] bcast_S_S850000),
    StableHlo.binary main_v3 main_v224 main_v225 (addi),
    StableHlo.ternary main_v223 main_v225 main_v3 main_v226 (select),
    StableHlo.unary main_v226 main_v227 (broadcastInDim S850000x1 ![0] bcast_S850000_S850000x1_0),
    StableHlo.binary main_v221 main_v227 main_v228 ((fun x i => Host.gather gather_S50000x64_S850000x1_S850000x64_1_0_n_n_0_1_164 x i)),
    StableHlo.unary main_v29 main_v229 (broadcastInDim S850000x1 ![0] bcast_S850000_S850000x1_0),
    StableHlo.unary main_v229 main_v230 (broadcastInDim S850000x64 ![0, 1] bcast_S850000x1_S850000x64_0_1),
    StableHlo.binary main_v228 main_v230 main_v231 (mulf),
    StableHlo.nullary main_cst_46 (constant S_ .f32 0x00000000#32),
    StableHlo.unary main_cst_46 main_v232 (broadcastInDim S50000x64 ![] bcast_S_S50000x64),
    StableHlo.unary main_v6 main_v233 (broadcastInDim S850000x1 ![0] bcast_S850000_S850000x1_0),
    StableHlo.ternary main_v232 main_v233 main_v231 main_v234 ((fun x i u => Host.scatterAdd scatter_S50000x64_S850000x1_S850000x64_1_0_0_1 x i u)),
    StableHlo.nullary main_cst_47 (constant S_ .f32 0x3F666666#32),
    StableHlo.unary main_cst_47 main_v235 (broadcastInDim S50000x64 ![] bcast_S_S50000x64),
    StableHlo.binary main_v235 main_v234 main_v236 (mulf),
    StableHlo.nullary main_cst_48 (constant S_ .f32 0x3DCCCCCD#32),
    StableHlo.unary main_cst_48 main_v237 (broadcastInDim S50000x64 ![] bcast_S_S50000x64),
    StableHlo.binary main_v237 main_v185 main_v238 (mulf),
    StableHlo.binary main_v236 main_v238 main_v239 (addf),
    StableHlo.nullary main_c_49 (constantI S_ 32 0#32),
    StableHlo.unary main_c_49 main_v240 (broadcastInDim S850000 ![] bcast_S_S850000),
    StableHlo.binary main_v3 main_v240 main_v241 (cmpi .slt),
    StableHlo.nullary main_c_50 (constantI S_ 32 50000#32),
    StableHlo.unary main_c_50 main_v242 (broadcastInDim S850000 ![] bcast_S_S850000),
    StableHlo.binary main_v3 main_v242 main_v243 (addi),
    StableHlo.ternary main_v241 main_v243 main_v3 main_v244 (select),
    StableHlo.unary main_v244 main_v245 (broadcastInDim S850000x1 ![0] bcast_S850000_S850000x1_0),
    StableHlo.binary main_v239 main_v245 main_v246 ((fun x i => Host.gather gather_S50000x64_S850000x1_S850000x64_1_0_n_n_0_1_164 x i)) ]

abbrev ops5 : List (HloOp τ sig (Elt F)) :=
  [ StableHlo.unary main_v29 main_v247 (broadcastInDim S850000x1 ![0] bcast_S850000_S850000x1_0),
    StableHlo.unary main_v247 main_v248 (broadcastInDim S850000x64 ![0, 1] bcast_S850000x1_S850000x64_0_1),
    StableHlo.binary main_v246 main_v248 main_v249 (mulf),
    StableHlo.nullary main_cst_51 (constant S_ .f32 0x00000000#32),
    StableHlo.unary main_cst_51 main_v250 (broadcastInDim S50000x64 ![] bcast_S_S50000x64),
    StableHlo.unary main_v6 main_v251 (broadcastInDim S850000x1 ![0] bcast_S850000_S850000x1_0),
    StableHlo.ternary main_v250 main_v251 main_v249 main_v252 ((fun x i u => Host.scatterAdd scatter_S50000x64_S850000x1_S850000x64_1_0_0_1 x i u)),
    StableHlo.nullary main_cst_52 (constant S_ .f32 0x3F666666#32),
    StableHlo.unary main_cst_52 main_v253 (broadcastInDim S50000x64 ![] bcast_S_S50000x64),
    StableHlo.binary main_v253 main_v252 main_v254 (mulf),
    StableHlo.nullary main_cst_53 (constant S_ .f32 0x3DCCCCCD#32),
    StableHlo.unary main_cst_53 main_v255 (broadcastInDim S50000x64 ![] bcast_S_S50000x64),
    StableHlo.binary main_v255 main_v185 main_v256 (mulf),
    StableHlo.binary main_v254 main_v256 main_v257 (addf),
    StableHlo.nullary main_c_54 (constantI S_ 32 0#32),
    StableHlo.unary main_c_54 main_v258 (broadcastInDim S850000 ![] bcast_S_S850000),
    StableHlo.binary main_v3 main_v258 main_v259 (cmpi .slt),
    StableHlo.nullary main_c_55 (constantI S_ 32 50000#32),
    StableHlo.unary main_c_55 main_v260 (broadcastInDim S850000 ![] bcast_S_S850000),
    StableHlo.binary main_v3 main_v260 main_v261 (addi),
    StableHlo.ternary main_v259 main_v261 main_v3 main_v262 (select),
    StableHlo.unary main_v262 main_v263 (broadcastInDim S850000x1 ![0] bcast_S850000_S850000x1_0),
    StableHlo.binary main_v257 main_v263 main_v264 ((fun x i => Host.gather gather_S50000x64_S850000x1_S850000x64_1_0_n_n_0_1_164 x i)),
    StableHlo.unary main_v29 main_v265 (broadcastInDim S850000x1 ![0] bcast_S850000_S850000x1_0),
    StableHlo.unary main_v265 main_v266 (broadcastInDim S850000x64 ![0, 1] bcast_S850000x1_S850000x64_0_1),
    StableHlo.binary main_v264 main_v266 main_v267 (mulf),
    StableHlo.nullary main_cst_56 (constant S_ .f32 0x00000000#32),
    StableHlo.unary main_cst_56 main_v268 (broadcastInDim S50000x64 ![] bcast_S_S50000x64),
    StableHlo.unary main_v6 main_v269 (broadcastInDim S850000x1 ![0] bcast_S850000_S850000x1_0),
    StableHlo.ternary main_v268 main_v269 main_v267 main_v270 ((fun x i u => Host.scatterAdd scatter_S50000x64_S850000x1_S850000x64_1_0_0_1 x i u)),
    StableHlo.nullary main_cst_57 (constant S_ .f32 0x3F666666#32),
    StableHlo.unary main_cst_57 main_v271 (broadcastInDim S50000x64 ![] bcast_S_S50000x64),
    StableHlo.binary main_v271 main_v270 main_v272 (mulf),
    StableHlo.nullary main_cst_58 (constant S_ .f32 0x3DCCCCCD#32),
    StableHlo.unary main_cst_58 main_v273 (broadcastInDim S50000x64 ![] bcast_S_S50000x64),
    StableHlo.binary main_v273 main_v185 main_v274 (mulf),
    StableHlo.binary main_v272 main_v274 main_v275 (addf),
    StableHlo.nullary main_c_59 (constantI S_ 32 0#32),
    StableHlo.unary main_c_59 main_v276 (broadcastInDim S850000 ![] bcast_S_S850000),
    StableHlo.binary main_v3 main_v276 main_v277 (cmpi .slt),
    StableHlo.nullary main_c_60 (constantI S_ 32 50000#32),
    StableHlo.unary main_c_60 main_v278 (broadcastInDim S850000 ![] bcast_S_S850000),
    StableHlo.binary main_v3 main_v278 main_v279 (addi),
    StableHlo.ternary main_v277 main_v279 main_v3 main_v280 (select),
    StableHlo.unary main_v280 main_v281 (broadcastInDim S850000x1 ![0] bcast_S850000_S850000x1_0),
    StableHlo.binary main_v275 main_v281 main_v282 ((fun x i => Host.gather gather_S50000x64_S850000x1_S850000x64_1_0_n_n_0_1_164 x i)),
    StableHlo.unary main_v29 main_v283 (broadcastInDim S850000x1 ![0] bcast_S850000_S850000x1_0),
    StableHlo.unary main_v283 main_v284 (broadcastInDim S850000x64 ![0, 1] bcast_S850000x1_S850000x64_0_1),
    StableHlo.binary main_v282 main_v284 main_v285 (mulf),
    StableHlo.nullary main_cst_61 (constant S_ .f32 0x00000000#32),
    StableHlo.unary main_cst_61 main_v286 (broadcastInDim S50000x64 ![] bcast_S_S50000x64),
    StableHlo.unary main_v6 main_v287 (broadcastInDim S850000x1 ![0] bcast_S850000_S850000x1_0),
    StableHlo.ternary main_v286 main_v287 main_v285 main_v288 ((fun x i u => Host.scatterAdd scatter_S50000x64_S850000x1_S850000x64_1_0_0_1 x i u)),
    StableHlo.nullary main_cst_62 (constant S_ .f32 0x3F666666#32),
    StableHlo.unary main_cst_62 main_v289 (broadcastInDim S50000x64 ![] bcast_S_S50000x64),
    StableHlo.binary main_v289 main_v288 main_v290 (mulf),
    StableHlo.nullary main_cst_63 (constant S_ .f32 0x3DCCCCCD#32),
    StableHlo.unary main_cst_63 main_v291 (broadcastInDim S50000x64 ![] bcast_S_S50000x64),
    StableHlo.binary main_v291 main_v185 main_v292 (mulf),
    StableHlo.binary main_v290 main_v292 main_v293 (addf) ]

abbrev ops6 : List (HloOp τ sig (Elt F)) :=
  [ StableHlo.nullary main_c_64 (constantI S_ 32 0#32),
    StableHlo.unary main_c_64 main_v294 (broadcastInDim S850000 ![] bcast_S_S850000),
    StableHlo.binary main_v3 main_v294 main_v295 (cmpi .slt),
    StableHlo.nullary main_c_65 (constantI S_ 32 50000#32),
    StableHlo.unary main_c_65 main_v296 (broadcastInDim S850000 ![] bcast_S_S850000),
    StableHlo.binary main_v3 main_v296 main_v297 (addi),
    StableHlo.ternary main_v295 main_v297 main_v3 main_v298 (select),
    StableHlo.unary main_v298 main_v299 (broadcastInDim S850000x1 ![0] bcast_S850000_S850000x1_0),
    StableHlo.binary main_v293 main_v299 main_v300 ((fun x i => Host.gather gather_S50000x64_S850000x1_S850000x64_1_0_n_n_0_1_164 x i)),
    StableHlo.unary main_v29 main_v301 (broadcastInDim S850000x1 ![0] bcast_S850000_S850000x1_0),
    StableHlo.unary main_v301 main_v302 (broadcastInDim S850000x64 ![0, 1] bcast_S850000x1_S850000x64_0_1),
    StableHlo.binary main_v300 main_v302 main_v303 (mulf),
    StableHlo.nullary main_cst_66 (constant S_ .f32 0x00000000#32),
    StableHlo.unary main_cst_66 main_v304 (broadcastInDim S50000x64 ![] bcast_S_S50000x64),
    StableHlo.unary main_v6 main_v305 (broadcastInDim S850000x1 ![0] bcast_S850000_S850000x1_0),
    StableHlo.ternary main_v304 main_v305 main_v303 main_v306 ((fun x i u => Host.scatterAdd scatter_S50000x64_S850000x1_S850000x64_1_0_0_1 x i u)),
    StableHlo.nullary main_cst_67 (constant S_ .f32 0x3F666666#32),
    StableHlo.unary main_cst_67 main_v307 (broadcastInDim S50000x64 ![] bcast_S_S50000x64),
    StableHlo.binary main_v307 main_v306 main_v308 (mulf),
    StableHlo.nullary main_cst_68 (constant S_ .f32 0x3DCCCCCD#32),
    StableHlo.unary main_cst_68 main_v309 (broadcastInDim S50000x64 ![] bcast_S_S50000x64),
    StableHlo.binary main_v309 main_v185 main_v310 (mulf),
    StableHlo.binary main_v308 main_v310 main_v311 (addf),
    StableHlo.nullary main_c_69 (constantI S_ 32 0#32),
    StableHlo.unary main_c_69 main_v312 (broadcastInDim S850000 ![] bcast_S_S850000),
    StableHlo.binary main_v3 main_v312 main_v313 (cmpi .slt),
    StableHlo.nullary main_c_70 (constantI S_ 32 50000#32),
    StableHlo.unary main_c_70 main_v314 (broadcastInDim S850000 ![] bcast_S_S850000),
    StableHlo.binary main_v3 main_v314 main_v315 (addi),
    StableHlo.ternary main_v313 main_v315 main_v3 main_v316 (select),
    StableHlo.unary main_v316 main_v317 (broadcastInDim S850000x1 ![0] bcast_S850000_S850000x1_0),
    StableHlo.binary main_v311 main_v317 main_v318 ((fun x i => Host.gather gather_S50000x64_S850000x1_S850000x64_1_0_n_n_0_1_164 x i)),
    StableHlo.unary main_v29 main_v319 (broadcastInDim S850000x1 ![0] bcast_S850000_S850000x1_0),
    StableHlo.unary main_v319 main_v320 (broadcastInDim S850000x64 ![0, 1] bcast_S850000x1_S850000x64_0_1),
    StableHlo.binary main_v318 main_v320 main_v321 (mulf),
    StableHlo.nullary main_cst_71 (constant S_ .f32 0x00000000#32),
    StableHlo.unary main_cst_71 main_v322 (broadcastInDim S50000x64 ![] bcast_S_S50000x64),
    StableHlo.unary main_v6 main_v323 (broadcastInDim S850000x1 ![0] bcast_S850000_S850000x1_0),
    StableHlo.ternary main_v322 main_v323 main_v321 main_v324 ((fun x i u => Host.scatterAdd scatter_S50000x64_S850000x1_S850000x64_1_0_0_1 x i u)),
    StableHlo.nullary main_cst_72 (constant S_ .f32 0x3F666666#32),
    StableHlo.unary main_cst_72 main_v325 (broadcastInDim S50000x64 ![] bcast_S_S50000x64),
    StableHlo.binary main_v325 main_v324 main_v326 (mulf),
    StableHlo.nullary main_cst_73 (constant S_ .f32 0x3DCCCCCD#32),
    StableHlo.unary main_cst_73 main_v327 (broadcastInDim S50000x64 ![] bcast_S_S50000x64),
    StableHlo.binary main_v327 main_v185 main_v328 (mulf),
    StableHlo.binary main_v326 main_v328 main_v329 (addf),
    StableHlo.nullary main_c_74 (constantI S_ 32 0#32),
    StableHlo.unary main_c_74 main_v330 (broadcastInDim S850000 ![] bcast_S_S850000),
    StableHlo.binary main_v3 main_v330 main_v331 (cmpi .slt),
    StableHlo.nullary main_c_75 (constantI S_ 32 50000#32),
    StableHlo.unary main_c_75 main_v332 (broadcastInDim S850000 ![] bcast_S_S850000),
    StableHlo.binary main_v3 main_v332 main_v333 (addi),
    StableHlo.ternary main_v331 main_v333 main_v3 main_v334 (select),
    StableHlo.unary main_v334 main_v335 (broadcastInDim S850000x1 ![0] bcast_S850000_S850000x1_0),
    StableHlo.binary main_v329 main_v335 main_v336 ((fun x i => Host.gather gather_S50000x64_S850000x1_S850000x64_1_0_n_n_0_1_164 x i)),
    StableHlo.unary main_v29 main_v337 (broadcastInDim S850000x1 ![0] bcast_S850000_S850000x1_0),
    StableHlo.unary main_v337 main_v338 (broadcastInDim S850000x64 ![0, 1] bcast_S850000x1_S850000x64_0_1),
    StableHlo.binary main_v336 main_v338 main_v339 (mulf),
    StableHlo.nullary main_cst_76 (constant S_ .f32 0x00000000#32),
    StableHlo.unary main_cst_76 main_v340 (broadcastInDim S50000x64 ![] bcast_S_S50000x64) ]

abbrev ops7 : List (HloOp τ sig (Elt F)) :=
  [ StableHlo.unary main_v6 main_v341 (broadcastInDim S850000x1 ![0] bcast_S850000_S850000x1_0),
    StableHlo.ternary main_v340 main_v341 main_v339 main_v342 ((fun x i u => Host.scatterAdd scatter_S50000x64_S850000x1_S850000x64_1_0_0_1 x i u)),
    StableHlo.nullary main_cst_77 (constant S_ .f32 0x3F666666#32),
    StableHlo.unary main_cst_77 main_v343 (broadcastInDim S50000x64 ![] bcast_S_S50000x64),
    StableHlo.binary main_v343 main_v342 main_v344 (mulf),
    StableHlo.nullary main_cst_78 (constant S_ .f32 0x3DCCCCCD#32),
    StableHlo.unary main_cst_78 main_v345 (broadcastInDim S50000x64 ![] bcast_S_S50000x64),
    StableHlo.binary main_v345 main_v185 main_v346 (mulf),
    StableHlo.binary main_v344 main_v346 main_v347 (addf),
    StableHlo.nullary main_c_79 (constantI S_ 32 0#32),
    StableHlo.unary main_c_79 main_v348 (broadcastInDim S850000 ![] bcast_S_S850000),
    StableHlo.binary main_v3 main_v348 main_v349 (cmpi .slt),
    StableHlo.nullary main_c_80 (constantI S_ 32 50000#32),
    StableHlo.unary main_c_80 main_v350 (broadcastInDim S850000 ![] bcast_S_S850000),
    StableHlo.binary main_v3 main_v350 main_v351 (addi),
    StableHlo.ternary main_v349 main_v351 main_v3 main_v352 (select),
    StableHlo.unary main_v352 main_v353 (broadcastInDim S850000x1 ![0] bcast_S850000_S850000x1_0),
    StableHlo.binary main_v347 main_v353 main_v354 ((fun x i => Host.gather gather_S50000x64_S850000x1_S850000x64_1_0_n_n_0_1_164 x i)),
    StableHlo.unary main_v29 main_v355 (broadcastInDim S850000x1 ![0] bcast_S850000_S850000x1_0),
    StableHlo.unary main_v355 main_v356 (broadcastInDim S850000x64 ![0, 1] bcast_S850000x1_S850000x64_0_1),
    StableHlo.binary main_v354 main_v356 main_v357 (mulf),
    StableHlo.nullary main_cst_81 (constant S_ .f32 0x00000000#32),
    StableHlo.unary main_cst_81 main_v358 (broadcastInDim S50000x64 ![] bcast_S_S50000x64),
    StableHlo.unary main_v6 main_v359 (broadcastInDim S850000x1 ![0] bcast_S850000_S850000x1_0),
    StableHlo.ternary main_v358 main_v359 main_v357 main_v360 ((fun x i u => Host.scatterAdd scatter_S50000x64_S850000x1_S850000x64_1_0_0_1 x i u)),
    StableHlo.nullary main_cst_82 (constant S_ .f32 0x3F666666#32),
    StableHlo.unary main_cst_82 main_v361 (broadcastInDim S50000x64 ![] bcast_S_S50000x64),
    StableHlo.binary main_v361 main_v360 main_v362 (mulf),
    StableHlo.nullary main_cst_83 (constant S_ .f32 0x3DCCCCCD#32),
    StableHlo.unary main_cst_83 main_v363 (broadcastInDim S50000x64 ![] bcast_S_S50000x64),
    StableHlo.binary main_v363 main_v185 main_v364 (mulf),
    StableHlo.binary main_v362 main_v364 main_v365 (addf),
    StableHlo.binary main_v365 main_arg14 main_v366 ((fun l r => Host.dotGeneral dot_S50000x64_S64x64_S50000x64_1_0_0_1_n_n none l r)),
    StableHlo.unary main_arg15 main_v367 (broadcastInDim S1x64 ![1] bcast_S64_S1x64_1),
    StableHlo.unary main_v367 main_v368 (broadcastInDim S50000x64 ![0, 1] bcast_S1x64_S50000x64_0_1),
    StableHlo.binary main_v366 main_v368 main_v369 (addf),
    StableHlo.TRef.nullary main_call9.cst (constant S_ .f32 0xFF800000#32),
    StableHlo.TRef.binary (.of main_v369 : StableHlo.TRef sig ⟨S50000x64, .f32⟩) main_call9.cst main_call9.v0 (fun x v => Host.reduce FloatOps.maximumf x v reducesTo_S50000x64_S50000_d1 h_S_),
    StableHlo.TRef.nullary main_call9.cst_0 (constant S_ .f32 0xFF800000#32),
    StableHlo.TRef.unary main_call9.cst_0 main_call9.v1 (broadcastInDim S50000 ![] bcast_S_S50000),
    StableHlo.TRef.binary main_call9.v1 main_call9.v0 main_call9.v2 maximumf,
    StableHlo.TRef.unary main_call9.v2 main_call9.v3 (broadcastInDim S50000x1 ![0] bcast_S50000_S50000x1_0),
    StableHlo.TRef.unary main_call9.v3 main_call9.v4 (broadcastInDim S50000x64 ![0, 1] bcast_S50000x1_S50000x64_0_1),
    StableHlo.TRef.binary (.of main_v369 : StableHlo.TRef sig ⟨S50000x64, .f32⟩) main_call9.v4 main_call9.v5 subf,
    StableHlo.TRef.unary main_call9.v5 main_call9.v6 Host.exp,
    StableHlo.TRef.nullary main_call9.cst_1 (constant S_ .f32 0x00000000#32),
    StableHlo.TRef.binary main_call9.v6 main_call9.cst_1 main_call9.v7 (fun x v => Host.reduceAdd x v reducesTo_S50000x64_S50000_d1 h_S_),
    StableHlo.TRef.unary main_call9.v7 main_call9.v8 (broadcastInDim S50000x1 ![0] bcast_S50000_S50000x1_0),
    StableHlo.TRef.unary main_call9.v8 main_call9.v9 Host.log,
    StableHlo.TRef.unary main_call9.v9 main_call9.v10 (broadcastInDim S50000x64 ![0, 1] bcast_S50000x1_S50000x64_0_1),
    StableHlo.TRef.binary main_call9.v5 main_call9.v10 main_call9.v11 subf ]

abbrev ops : List (HloOp τ sig (Elt F)) :=
  ops0 ++ (ops1 ++ (ops2 ++ (ops3 ++ (ops4 ++ (ops5 ++ (ops6 ++ ops7))))))

end Cert.ReferenceIdeal.RefRun

end
-- ==== Proof.RefRun.lean ====
import proofs.«173378_j55121610277361_1_alg».proof.Proof.Gen.ReferenceIdeal
import proofs.«173378_j55121610277361_1_alg».proof.Proof.RefOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- opening the called functions at their calls and reassociating the sequencing is computation
set_option maxRecDepth 8192 in
theorem main_eq (c : Dev nD) : main (F := F) c = seq ops := by
  simp only [ops, seq_append]
  rfl

theorem scopedRefs_eq : (Finset.univ.filter fun b : Ref sig .tc => b.isScoped) = ∅ := by decide
theorem scopedSems_eq : (Finset.univ.filter fun sm : SemLoc sig => sm.isScoped .tc) = ∅ := by decide

-- each builder's buffers are its operands and its result
theorem ops_sub : (ops (F := F)).Forall fun op => op.bufs ⊆ tcRefs τ sig := by
  simp only [ops, List.forall_append]
  repeat' apply And.intro
  all_goals try with_reducible first | exact binary_bufs_sub .. | exact unary_bufs_sub .. | exact nullary_bufs_sub ..
  all_goals simp only [List.Forall, reshape_bufs_sub, binary_bufs_sub, unary_bufs_sub, ternary_bufs_sub, nullary_bufs_sub]

-- every builder determines the contents of what it writes
theorem ops_fresh : (ops (F := F)).Forall fun op => op.fresh = ∅ := by
  simp only [ops, List.forall_append]
  repeat' apply And.intro
  all_goals rfl

-- every weakly fair execution terminates with every buffer at the operations' fold over the launch contents
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    fun _ => List.forall_iff_forall_mem.mp ops_fresh

end Cert.ReferenceIdeal.RefRun

end
-- ==== Proof.RefStage.lean ====
import proofs.«173378_j55121610277361_1_alg».proof.Proof.Spec

noncomputable section

namespace Cert.RefStage

open Cert.ReferenceIdeal Idealize.ShloMosaic Idealize.ShloMosaic.TcCoe Cert.Spec

variable {F : FTy → Type} [FloatOps F] [hR : Cert.ReferenceIdeal.Facts]
open Cert.ReferenceIdeal.Facts₀ Cert.ReferenceIdeal.Facts

def dot128 (x : A (F := F) S50000x128) (W : A (F := F) S128x64) : A (F := F) S50000x64 :=
  Host.dotGeneral dot_S50000x128_S128x64_S50000x64_1_0_0_1_n_n none x W
def dot64 (h : A (F := F) S50000x64) (W : A (F := F) S64x64) : A (F := F) S50000x64 :=
  Host.dotGeneral dot_S50000x64_S64x64_S50000x64_1_0_0_1_n_n none h W

def rowB (v : A (F := F) S64) : A (F := F) S50000x64 :=
  broadcastInDim S50000x64 ![0, 1] bcast_S1x64_S50000x64_0_1 (broadcastInDim S1x64 ![1] bcast_S64_S1x64_1 v)

def colSums (z : A (F := F) S50000x64) : A (F := F) S64 :=
  Host.reduceAdd z (constant S_ .f32 0x00000000#32) reducesTo_S50000x64_S64_d0 h_S_

def mean (z : A (F := F) S50000x64) : A (F := F) S64 :=
  Host.divf (colSums z) (broadcastInDim S64 ![] bcast_S_S64 (constant S_ .f32 0x47435000#32))

def centred (z : A (F := F) S50000x64) : A (F := F) S50000x64 :=
  subf z (broadcastInDim S50000x64 ![0, 1] bcast_S1x64_S50000x64_0_1
    (Host.divf (broadcastInDim S1x64 ![1] bcast_S64_S1x64_1 (colSums z)) (broadcastInDim S1x64 ![] bcast_S_S1x64 (constant S_ .f32 0x47435000#32))))

def divisor : A (F := F) S_ := subf (constant S_ .f32 0x47435000#32) (sitofp .f32 (constantI S_ 32 0#32))

def var (z : A (F := F) S50000x64) : A (F := F) S64 :=
  select (broadcastInDim S64 ![] bcast_S_S64 (cmpf .ogt (divisor (F := F)) (constant S_ .f32 0x00000000#32)))
    (Host.divf (colSums (mulf (centred z) (centred z))) (broadcastInDim S64 ![] bcast_S_S64 divisor))
    (broadcastInDim S64 ![] bcast_S_S64 (id (constant S_ .f32 0x7FC00000#32)))

def bn (z : A (F := F) S50000x64) (g be : A (F := F) S64) : A (F := F) S50000x64 :=
  maximumf
    (addf (mulf (mulf (rowB g) (subf z (rowB (mean z))))
        (rowB (Host.rsqrt (addf (var z) (broadcastInDim S64 ![] bcast_S_S64 (constant S_ .f32 0x3727C5AC#32))))))
      (rowB be))
    (broadcastInDim S50000x64 ![] bcast_S_S50000x64 (constant S_ .f32 0x00000000#32))

def blend (p h0 : A (F := F) S50000x64) : A (F := F) S50000x64 :=
  addf (mulf (broadcastInDim S50000x64 ![] bcast_S_S50000x64 (constant S_ .f32 0x3F666666#32)) p)
       (mulf (broadcastInDim S50000x64 ![] bcast_S_S50000x64 (constant S_ .f32 0x3DCCCCCD#32)) h0)

def rowMaxB (x : A (F := F) S50000x64) : A (F := F) S50000x64 :=
  broadcastInDim S50000x64 ![0, 1] bcast_S50000x1_S50000x64_0_1 (broadcastInDim S50000x1 ![0] bcast_S50000_S50000x1_0
    (maximumf (broadcastInDim S50000 ![] bcast_S_S50000 (constant S_ .f32 0xFF800000#32))
      (Host.reduce FloatOps.maximumf x (constant S_ .f32 0xFF800000#32) reducesTo_S50000x64_S50000_d1 h_S_)))

def logSoftmax (x : A (F := F) S50000x64) : A (F := F) S50000x64 :=
  subf (subf x (rowMaxB x))
    (broadcastInDim S50000x64 ![0, 1] bcast_S50000x1_S50000x64_0_1
      (Host.log (broadcastInDim S50000x1 ![0] bcast_S50000_S50000x1_0
        (Host.reduceAdd (Host.exp (subf x (rowMaxB x))) (constant S_ .f32 0x00000000#32) reducesTo_S50000x64_S50000_d1 h_S_))))

def fc (h : A (F := F) S50000x64) (W : A (F := F) S64x64) (b : A (F := F) S64) : A (F := F) S50000x64 :=
  logSoftmax (addf (dot64 h W) (rowB b))

def layerL (src dst : I (F := F) S850000) (w : A (F := F) S850000) (hW : A (F := F) S50000x64) (b g be : A (F := F) S64) : A (F := F) S50000x64 :=
  bn (addBias (prop src dst w hW) b) g be

def appnpL (src dst : I (F := F) S850000) (w : A (F := F) S850000) (h0 : A (F := F) S50000x64) : Nat → A (F := F) S50000x64
  | 0 => h0
  | n + 1 => blend (prop src dst w (appnpL src dst w h0 n)) h0

def resultL (x : A (F := F) S50000x128) (ei : I (F := F) S2x800000) (W1 : A (F := F) S128x64) (b1 : A (F := F) S64) (W2 : A (F := F) S64x64) (b2 : A (F := F) S64)
    (Wx : A (F := F) S2x64x64) (bx : A (F := F) S2x64) (g1 be1 g2 be2 g3 be3 : A (F := F) S64) (Wfc : A (F := F) S64x64) (bfc : A (F := F) S64) : A (F := F) S50000x64 :=
  fc (appnpL (srcOf ei) (dstOf ei) (edgeWOf (srcOf ei) (dstOf ei))
      (layerL (srcOf ei) (dstOf ei) (edgeWOf (srcOf ei) (dstOf ei))
        (dot64 (layerL (srcOf ei) (dstOf ei) (edgeWOf (srcOf ei) (dstOf ei))
          (dot64 (layerL (srcOf ei) (dstOf ei) (edgeWOf (srcOf ei) (dstOf ei))
            (dot64 (layerL (srcOf ei) (dstOf ei) (edgeWOf (srcOf ei) (dstOf ei)) (dot128 x W1) b1 g1 be1) W2) b2 g2 be2)
            (wx0 Wx)) (bx0 bx) g3 be3)
          (wx1 Wx)) (bx1 bx) g3 be3) 10) Wfc bfc

end Cert.RefStage

end
-- ==== Proof.RefRead.lean ====
import proofs.«173378_j55121610277361_1_alg».proof.Proof.RefOps
import proofs.«173378_j55121610277361_1_alg».proof.Proof.RefStage

noncomputable section

namespace Cert.ReferenceIdeal.RefRun

open Cert.ReferenceIdeal Idealize.ShloMosaic Idealize.ShloMosaic.TcCoe Idealize.ShloMosaic.StableHlo

variable {F : FTy → Type} [FloatOps F] [Cert.ReferenceIdeal.Facts]
open Cert.ReferenceIdeal.Facts₀ Cert.ReferenceIdeal.Facts

-- the fold over a concatenation is the two folds in turn
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- every buffer the operations write has index at least lo -/
def WritesFrom (lo : Nat) (l : List (HloOp τ sig (Elt F))) : Prop :=
  l.Forall fun op => ∀ d ∈ op.writes, lo ≤ d.idx.val

-- so a reference of lower index keeps its contents through them
theorem after_keep {lo : Nat} {l : List (HloOp τ sig (Elt F))} (hl : WritesFrom lo l) (V : Valuation τ sig (Elt F))
    (r : Ref sig .tc) (hr : r.idx.val < lo) : after l V (Proc.devRef .tc r) = V (Proc.devRef .tc r) :=
  after_of_forall_not_mem l V fun op hop hmem => Nat.not_le.mpr hr ((List.forall_iff_forall_mem.mp hl) op hop _ hmem)

set_option maxRecDepth 8192 in
theorem ops_writes : WritesFrom 16 (ops0 (F := F)) ∧ WritesFrom 78 (ops1 (F := F)) ∧ WritesFrom 182 (ops2 (F := F))
    ∧ WritesFrom 267 (ops3 (F := F)) ∧ WritesFrom 350 (ops4 (F := F)) ∧ WritesFrom 410 (ops5 (F := F))
    ∧ WritesFrom 470 (ops6 (F := F)) ∧ WritesFrom 530 (ops7 (F := F)) := by
  unfold WritesFrom
  simp only [List.Forall, nullary_writes, unary_writes, binary_writes, ternary_writes, reshape_writes,
    Finset.mem_singleton, forall_eq]
  repeat' apply And.intro
  all_goals decide

def eS (V0 : Valuation τ sig (Elt F)) : Cert.Spec.I (F := F) S850000 := Cert.Spec.srcOf (V0 (Proc.devRef .tc main_arg1))
def eD (V0 : Valuation τ sig (Elt F)) : Cert.Spec.I (F := F) S850000 := Cert.Spec.dstOf (V0 (Proc.devRef .tc main_arg1))
def eW (V0 : Valuation τ sig (Elt F)) : Cert.Spec.A (F := F) S850000 := Cert.Spec.edgeWOf (eS V0) (eD V0)
def z1 (V0 : Valuation τ sig (Elt F)) : Cert.Spec.A (F := F) S50000x64 :=
  Cert.Spec.addBias (Cert.Spec.prop (eS V0) (eD V0) (eW V0)
    (Cert.RefStage.dot128 (V0 (Proc.devRef .tc main_arg0)) (V0 (Proc.devRef .tc main_arg2)))) (V0 (Proc.devRef .tc main_arg3))
def h1 (V0 : Valuation τ sig (Elt F)) : Cert.Spec.A (F := F) S50000x64 :=
  Cert.RefStage.bn (z1 V0) (V0 (Proc.devRef .tc main_arg8)) (V0 (Proc.devRef .tc main_arg9))
def z2 (V0 : Valuation τ sig (Elt F)) : Cert.Spec.A (F := F) S50000x64 :=
  Cert.Spec.addBias (Cert.Spec.prop (eS V0) (eD V0) (eW V0)
    (Cert.RefStage.dot64 (h1 V0) (V0 (Proc.devRef .tc main_arg4)))) (V0 (Proc.devRef .tc main_arg5))
def h2 (V0 : Valuation τ sig (Elt F)) : Cert.Spec.A (F := F) S50000x64 :=
  Cert.RefStage.bn (z2 V0) (V0 (Proc.devRef .tc main_arg10)) (V0 (Proc.devRef .tc main_arg11))
def z3 (V0 : Valuation τ sig (Elt F)) : Cert.Spec.A (F := F) S50000x64 :=
  Cert.Spec.addBias (Cert.Spec.prop (eS V0) (eD V0) (eW V0)
    (Cert.RefStage.dot64 (h2 V0) (Cert.Spec.wx0 (V0 (Proc.devRef .tc main_arg6))))) (Cert.Spec.bx0 (V0 (Proc.devRef .tc main_arg7)))
def h3 (V0 : Valuation τ sig (Elt F)) : Cert.Spec.A (F := F) S50000x64 :=
  Cert.RefStage.bn (z3 V0) (V0 (Proc.devRef .tc main_arg12)) (V0 (Proc.devRef .tc main_arg13))
def z4 (V0 : Valuation τ sig (Elt F)) : Cert.Spec.A (F := F) S50000x64 :=
  Cert.Spec.addBias (Cert.Spec.prop (eS V0) (eD V0) (eW V0)
    (Cert.RefStage.dot64 (h3 V0) (Cert.Spec.wx1 (V0 (Proc.devRef .tc main_arg6))))) (Cert.Spec.bx1 (V0 (Proc.devRef .tc main_arg7)))
def h4 (V0 : Valuation τ sig (Elt F)) : Cert.Spec.A (F := F) S50000x64 :=
  Cert.RefStage.bn (z4 V0) (V0 (Proc.devRef .tc main_arg12)) (V0 (Proc.devRef .tc main_arg13))
def pk (V0 : Valuation τ sig (Elt F)) (n : Nat) : Cert.Spec.A (F := F) S50000x64 :=
  Cert.RefStage.appnpL (eS V0) (eD V0) (eW V0) (h4 V0) n

def val1 (V0 : Valuation τ sig (Elt F)) : Valuation τ sig (Elt F) := after ops0 V0
def val2 (V0 : Valuation τ sig (Elt F)) : Valuation τ sig (Elt F) := after ops1 (val1 V0)
def val3 (V0 : Valuation τ sig (Elt F)) : Valuation τ sig (Elt F) := after ops2 (val2 V0)
def val4 (V0 : Valuation τ sig (Elt F)) : Valuation τ sig (Elt F) := after ops3 (val3 V0)
def val5 (V0 : Valuation τ sig (Elt F)) : Valuation τ sig (Elt F) := after ops4 (val4 V0)
def val6 (V0 : Valuation τ sig (Elt F)) : Valuation τ sig (Elt F) := after ops5 (val5 V0)
def val7 (V0 : Valuation τ sig (Elt F)) : Valuation τ sig (Elt F) := after ops6 (val6 V0)
def val8 (V0 : Valuation τ sig (Elt F)) : Valuation τ sig (Elt F) := after ops7 (val7 V0)

-- a window leaves every buffer below its first index as the window before left it
theorem val_keep (V0 : Valuation τ sig (Elt F)) (r : Ref sig .tc) :
    (r.idx.val < 16 → val1 V0 (no_index (Proc.devRef .tc r)) = V0 (Proc.devRef .tc r))
    ∧ (r.idx.val < 78 → val2 V0 (no_index (Proc.devRef .tc r)) = val1 V0 (Proc.devRef .tc r))
    ∧ (r.idx.val < 182 → val3 V0 (no_index (Proc.devRef .tc r)) = val2 V0 (Proc.devRef .tc r))
    ∧ (r.idx.val < 267 → val4 V0 (no_index (Proc.devRef .tc r)) = val3 V0 (Proc.devRef .tc r))
    ∧ (r.idx.val < 350 → val5 V0 (no_index (Proc.devRef .tc r)) = val4 V0 (Proc.devRef .tc r))
    ∧ (r.idx.val < 410 → val6 V0 (no_index (Proc.devRef .tc r)) = val5 V0 (Proc.devRef .tc r))
    ∧ (r.idx.val < 470 → val7 V0 (no_index (Proc.devRef .tc r)) = val6 V0 (Proc.devRef .tc r))
    ∧ (r.idx.val < 530 → val8 V0 (no_index (Proc.devRef .tc r)) = val7 V0 (Proc.devRef .tc r)) :=
  ⟨after_keep ops_writes.1 _ r, after_keep ops_writes.2.1 _ r, after_keep ops_writes.2.2.1 _ r,
    after_keep ops_writes.2.2.2.1 _ r, after_keep ops_writes.2.2.2.2.1 _ r, after_keep ops_writes.2.2.2.2.2.1 _ r,
    after_keep ops_writes.2.2.2.2.2.2.1 _ r, after_keep ops_writes.2.2.2.2.2.2.2 _ r⟩

set_option maxRecDepth 8192 in
set_option maxHeartbeats 2000000 in
theorem val1_reads (V0 : Valuation τ sig (Elt F)) :
    val1 V0 (no_index (Proc.devRef .tc main_v3)) = eS V0
    ∧ val1 V0 (no_index (Proc.devRef .tc main_v6)) = eD V0
    ∧ val1 V0 (no_index (Proc.devRef .tc main_v29)) = eW V0
    ∧ val1 V0 (no_index (Proc.devRef .tc main_v46)) = z1 V0
    ∧ val1 V0 (no_index (Proc.devRef .tc main_v47)) = Cert.RefStage.colSums (z1 V0) := by
  refine ⟨?_, ?_, ?_, ?_, ?_⟩ <;> (unfold val1; simp only [ops0]; after_results_simp) <;> rfl

set_option maxRecDepth 8192 in
set_option maxHeartbeats 4000000 in
theorem val2_reads (V0 : Valuation τ sig (Elt F)) :
    val2 V0 (no_index (Proc.devRef .tc main_v93)) = mulf (Cert.RefStage.rowB (V0 (Proc.devRef .tc main_arg10)))
        (subf (z2 V0) (Cert.RefStage.rowB (Cert.RefStage.mean (z2 V0))))
    ∧ val2 V0 (no_index (Proc.devRef .tc main_v97)) = broadcastInDim S1x64 ![1] bcast_S64_S1x64_1
        (Host.rsqrt (addf (Cert.RefStage.var (z2 V0)) (broadcastInDim S64 ![] bcast_S_S64 (constant S_ .f32 0x3727C5AC#32)))) := by
  refine ⟨?_, ?_⟩ <;> (unfold val2; simp only [ops1]; after_results_simp) <;>
    simp (disch := decide) only [val_keep, val1_reads] <;> rfl

set_option maxRecDepth 8192 in
set_option maxHeartbeats 4000000 in
theorem val3_reads (V0 : Valuation τ sig (Elt F)) :
    val3 V0 (no_index (Proc.devRef .tc main_v147)) = Cert.RefStage.dot64 (h3 V0) (Cert.Spec.wx1 (V0 (Proc.devRef .tc main_arg6)))
    ∧ val3 V0 (no_index (Proc.devRef .tc main_v149)) = cmpi .slt (eS V0) (broadcastInDim S850000 ![] bcast_S_S850000 (constantI S_ 32 0#32)) := by
  refine ⟨?_, ?_⟩ <;> (unfold val3; simp only [ops2]; after_results_simp) <;>
    simp (disch := decide) only [val_keep, val1_reads, val2_reads] <;> rfl

set_option maxRecDepth 8192 in
set_option maxHeartbeats 4000000 in
theorem val4_reads (V0 : Valuation τ sig (Elt F)) :
    val4 V0 (no_index (Proc.devRef .tc main_v185)) = h4 V0
    ∧ val4 V0 (no_index (Proc.devRef .tc main_v198)) = Cert.Spec.prop (eS V0) (eD V0) (eW V0) (h4 V0)
    ∧ val4 V0 (no_index (Proc.devRef .tc main_v199)) = broadcastInDim S50000x64 ![] bcast_S_S50000x64 (constant S_ .f32 0x3F666666#32) := by
  refine ⟨?_, ?_, ?_⟩ <;> (unfold val4; simp only [ops3]; after_results_simp) <;>
    simp (disch := decide) only [val_keep, val1_reads, val3_reads] <;> rfl

set_option maxRecDepth 8192 in
set_option maxHeartbeats 4000000 in
theorem val5_v246 (V0 : Valuation τ sig (Elt F)) :
    val5 V0 (no_index (Proc.devRef .tc main_v246)) = Host.gather gather_S50000x64_S850000x1_S850000x64_1_0_n_n_0_1_164 (pk V0 3) (Cert.Spec.wrapCol (eS V0)) := by
  unfold val5
  simp only [ops4]
  after_results_simp
  simp (disch := decide) only [val_keep, val1_reads, val4_reads]
  rfl

set_option maxRecDepth 8192 in
set_option maxHeartbeats 4000000 in
theorem val6_v293 (V0 : Valuation τ sig (Elt F)) :
    val6 V0 (no_index (Proc.devRef .tc main_v293)) = pk V0 6 := by
  unfold val6
  simp only [ops5]
  after_results_simp
  simp (disch := decide) only [val_keep, val1_reads, val4_reads, val5_v246]
  rfl

set_option maxRecDepth 8192 in
set_option maxHeartbeats 4000000 in
theorem val7_reads (V0 : Valuation τ sig (Elt F)) :
    val7 V0 (no_index (Proc.devRef .tc main_v339)) = mulf (Host.gather gather_S50000x64_S850000x1_S850000x64_1_0_n_n_0_1_164 (pk V0 8) (Cert.Spec.wrapCol (eS V0)))
        (broadcastInDim S850000x64 ![0, 1] bcast_S850000x1_S850000x64_0_1
          (broadcastInDim S850000x1 ![0] bcast_S850000_S850000x1_0 (eW V0)))
    ∧ val7 V0 (no_index (Proc.devRef .tc main_v340)) = broadcastInDim S50000x64 ![] bcast_S_S50000x64 (constant S_ .f32 0x00000000#32) := by
  refine ⟨?_, ?_⟩ <;> (unfold val7; simp only [ops6]; after_results_simp) <;>
    simp (disch := decide) only [val_keep, val1_reads, val4_reads, val6_v293] <;> rfl

-- a typed reference's two transports cancel
theorem ofBuf_toBuf' {T : BufTy} (x : StableHlo.TRef sig T) (v : T.Contents (Elt F)) : x.ofBuf (x.toBuf v) = v := by
  rcases x with ⟨r, rfl, _, _⟩; rfl

-- the last nineteen operations, from any contents
theorem tail_eq (V : Valuation τ sig (Elt F)) :
    after ((ops7 : List (HloOp τ sig (Elt F))).drop 32) V (Proc.devRef .tc main_v370)
      = Cert.RefStage.fc (V (Proc.devRef .tc main_v365)) (V (Proc.devRef .tc main_arg14)) (V (Proc.devRef .tc main_arg15)) := by
  simp only [ops7, List.drop_succ_cons, List.drop_zero]
  after_results_simp
  simp only [ofBuf_toBuf']
  rfl

set_option maxRecDepth 8192 in
set_option maxHeartbeats 4000000 in
theorem head_v365 (V0 : Valuation τ sig (Elt F)) :
    after ((ops7 : List (HloOp τ sig (Elt F))).take 32) (val7 V0) (Proc.devRef .tc main_v365) = pk V0 10 := by
  simp only [ops7, List.take_succ_cons, List.take_zero]
  after_results_simp
  simp (disch := decide) only [val_keep, val1_reads, val4_reads, val7_reads]
  rfl

theorem head_low (V0 : Valuation τ sig (Elt F)) (r : Ref sig .tc) (h : r.idx.val < 16) :
    after ((ops7 : List (HloOp τ sig (Elt F))).take 32) (val7 V0) (Proc.devRef .tc r) = V0 (Proc.devRef .tc r) := by
  rw [after_keep (List.forall_iff_forall_mem.mpr fun op hop =>
    (List.forall_iff_forall_mem.mp ops_writes.2.2.2.2.2.2.2) op (List.mem_of_mem_take hop)) _ r (by omega)]
  simp (disch := omega) only [val_keep]

theorem val8_v370 (V0 : Valuation τ sig (Elt F)) :
    val8 V0 (no_index (Proc.devRef .tc main_v370))
      = Cert.RefStage.fc (pk V0 10) (V0 (Proc.devRef .tc main_arg14)) (V0 (Proc.devRef .tc main_arg15)) := by
  unfold val8
  have hsplit : (ops7 : List (HloOp τ sig (Elt F))) = ops7.take 32 ++ ops7.drop 32 := (List.take_append_drop 32 _).symm
  rw [hsplit, after_app, tail_eq, head_v365, head_low V0 main_arg14 (by decide), head_low V0 main_arg15 (by decide)]

theorem after_ops (V0 : Valuation τ sig (Elt F)) : after ops V0 = val8 V0 := by
  simp only [ops, after_app]
  rfl

theorem result_eq (V0 : Valuation τ sig (Elt F)) :
    after ops V0 (Proc.devRef .tc main_v370) = Cert.RefStage.resultL (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  rw [after_ops]
  exact (val8_v370 V0).trans rfl

-- the sixteen argument buffers are written by no operation
theorem arg_eq (V0 : Valuation τ sig (Elt F)) (r : Ref sig .tc) (h : r.idx.val < 16) :
    after ops V0 (Proc.devRef .tc r) = V0 (Proc.devRef .tc r) := by
  rw [after_ops]
  simp (disch := omega) only [val_keep]

end Cert.ReferenceIdeal.RefRun

end
-- ==== Proof.RefMath_Ops.lean ====
import proofs.«173378_j55121610277361_1_alg».proof.ReferenceIdeal
import Idealize.ShloMosaic.PureOps.Ideal.Laws
import Idealize.ShloMosaic.Lib.Pipeline.Value
import Idealize.ShloMosaic.Lib.ValueIdx

noncomputable section

namespace Cert.RefMathOps

open Cert.ReferenceIdeal Idealize.ShloMosaic Idealize.ShloMosaic.ValueIdx
open scoped BigOperators

section Layout
variable {α : Type}

theorem row1_apply (h : S64.BroadcastsInDim S1x64 (![1] : Fin 1 → Fin S1x64.rank)) (v : S64.Idx → α) (p : Fin 1) (q : Fin 64) :
    broadcastInDim S1x64 ![1] h v (ix2 p q) = v (ix1 q) :=
  broadcastInDim_apply ![1] h v (ix2 p q) (ix1 q) (fun a => by match a with | ⟨0, _⟩ => rfl)

theorem oneRow_apply (h : S1x64.BroadcastsInDim S50000x64 (![0, 1] : Fin 2 → Fin S50000x64.rank)) (y : S1x64.Idx → α)
    (p : Fin 50000) (q : Fin 64) : broadcastInDim S50000x64 ![0, 1] h y (ix2 p q) = y (ix2 (0 : Fin 1) q) :=
  broadcastInDim_apply ![0, 1] h y (ix2 p q) (ix2 (0 : Fin 1) q) (fun a => by match a with | ⟨0, _⟩ => rfl | ⟨1, _⟩ => rfl)

theorem col1_apply (h : S50000.BroadcastsInDim S50000x1 (![0] : Fin 1 → Fin S50000x1.rank)) (v : S50000.Idx → α) (p : Fin 50000) (q : Fin 1) :
    broadcastInDim S50000x1 ![0] h v (ix2 p q) = v (ix1 p) :=
  broadcastInDim_apply ![0] h v (ix2 p q) (ix1 p) (fun a => by match a with | ⟨0, _⟩ => rfl)

theorem oneCol_apply (h : S50000x1.BroadcastsInDim S50000x64 (![0, 1] : Fin 2 → Fin S50000x64.rank)) (y : S50000x1.Idx → α)
    (p : Fin 50000) (q : Fin 64) : broadcastInDim S50000x64 ![0, 1] h y (ix2 p q) = y (ix2 p (0 : Fin 1)) :=
  broadcastInDim_apply ![0, 1] h y (ix2 p q) (ix2 p (0 : Fin 1)) (fun a => by match a with | ⟨0, _⟩ => rfl | ⟨1, _⟩ => rfl)

end Layout

section Reduce

theorem lift_col (h : S50000x64.Reduces [0] S64) (q : Fin 64) (k : Fin (S50000x64.size 0)) :
    h.lift (ix1 q) k = ix2 (⟨k.val, k.isLt⟩ : Fin 50000) q := by
  funext c; apply Fin.ext
  match c with | ⟨0, _⟩ => rfl | ⟨1, _⟩ => rfl

theorem lift_row (h : S50000x64.Reduces [1] S50000) (p : Fin 50000) (k : Fin (S50000x64.size 1)) :
    h.lift (ix1 p) k = ix2 p (⟨k.val, k.isLt⟩ : Fin 64) := by
  funext c; apply Fin.ext
  match c with | ⟨0, _⟩ => rfl | ⟨1, _⟩ => rfl

theorem colSum_apply (h' : S50000x64.ReducesTo [0] S64) (hu : 0 < S_.numel) (x : FVec Ideal S50000x64 .f32) (init : FVec Ideal S_ .f32)
    (q : Fin 64) : Host.reduceAdd x init h' hu (ix1 q) = init ix0 + ∑ r : Fin 50000, x (ix2 r q) := by
  have h : S50000x64.Reduces [0] S64 := by decide
  unfold Host.reduceAdd
  rw [Ideal.hostReduceAdd_def, Ideal.hostReduceAdd_single h' h, eq_ix0 (Shape.Idx.first hu)]
  exact congrArg (init ix0 + ·) (Finset.sum_congr rfl fun k _ => congrArg x (lift_col h q k))

theorem rowSum_apply (h' : S50000x64.ReducesTo [1] S50000) (hu : 0 < S_.numel) (x : FVec Ideal S50000x64 .f32) (init : FVec Ideal S_ .f32)
    (p : Fin 50000) : Host.reduceAdd x init h' hu (ix1 p) = init ix0 + ∑ k : Fin 64, x (ix2 p k) := by
  have h : S50000x64.Reduces [1] S50000 := by decide
  unfold Host.reduceAdd
  rw [Ideal.hostReduceAdd_def, Ideal.hostReduceAdd_single h' h, eq_ix0 (Shape.Idx.first hu)]
  exact congrArg (init ix0 + ·) (Finset.sum_congr rfl fun k _ => congrArg x (lift_row h p k))

theorem rowMax_apply (h' : S50000x64.ReducesTo [1] S50000) (hu : 0 < S_.numel) (x : FVec Ideal S50000x64 .f32) (init : FVec Ideal S_ .f32)
    (p : Fin 50000) :
    Host.reduce FloatOps.maximumf x init h' hu (ix1 p)
      = (Finset.univ : Finset (Fin 64)).fold max (init ix0) (fun k => x (ix2 p k)) := by
  have h : S50000x64.Reduces [1] S50000 := by decide
  rw [Host.reduce_eq_fold_single FloatOps.maximumf x init h' h hu, eq_ix0 (Shape.Idx.first hu)]
  have hf : (x ∘ h.lift (ix1 p)) = fun k : Fin 64 => x (ix2 p k) := funext fun k => congrArg x (lift_row h p k)
  exact congrArg (fun f => Finset.fold max (init ix0) f (Finset.univ : Finset (Fin 64))) hf

end Reduce

section Dot
variable [Facts₀] {M K N : Nat} (i : (⟨2, ![M, N]⟩ : Shape).Idx)

theorem lhs_0 (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.2 rfl)]
  rfl
theorem rhs_1 (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.2 rfl)]
  rfl

/-- an M x K by K x N product at an index: the sum over k of x (p, k) W (k, q) -/
theorem dotPlain_apply (x : FVec Ideal ⟨2, ![M, K]⟩ .f32) (W : FVec Ideal ⟨2, ![K, N]⟩ .f32) :
    Host.dotGeneral (DotDims.plain M K N) none x W i = ∑ k : Fin K, x (ix2 (i 0) k) * W (ix2 k (i 1)) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_0 _ _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact rhs_1 _ _)
  rw [el, er]
  rfl

theorem dot128_apply (x : FVec Ideal S50000x128 .f32) (W : FVec Ideal S128x64 .f32) (i : S50000x64.Idx) :
    Host.dotGeneral dot_S50000x128_S128x64_S50000x64_1_0_0_1_n_n none x W i = ∑ k : Fin 128, x (ix2 (i 0) k) * W (ix2 k (i 1)) :=
  dotPlain_apply (M := 50000) (K := 128) (N := 64) i x W

theorem dot64_apply (x : FVec Ideal S50000x64 .f32) (W : FVec Ideal S64x64 .f32) (i : S50000x64.Idx) :
    Host.dotGeneral dot_S50000x64_S64x64_S50000x64_1_0_0_1_n_n none x W i = ∑ k : Fin 64, x (ix2 (i 0) k) * W (ix2 k (i 1)) :=
  dotPlain_apply (M := 50000) (K := 64) (N := 64) i x W

end Dot

section Scalar
variable {s : Shape}

theorem hostRsqrt_apply (x : FVec Ideal s .f32) (i : s.Idx) : Host.rsqrt x i = Ideal.rsqrt (x i) := rfl
theorem hostExp_apply (x : FVec Ideal s .f32) (i : s.Idx) : Host.exp x i = Ideal.exp (x i) := rfl
theorem hostLog_apply (x : FVec Ideal s .f32) (i : s.Idx) : Host.log x i = Ideal.log (x i) := rfl

theorem ofBits_50000 : Ideal.ofBits .f32 0x47435000#32 = ((50000 : ℝ) : EReal) := by
  simp [Ideal.ofBits, Ideal.ieee, -EReal.coe_mul]; norm_num

theorem sub_sitofp_zero (a : EReal) : a - (FloatOps.sitofp (F := Ideal) .f32 (0#32 : BitVec 32)) = a := by
  have h0 : (FloatOps.sitofp (F := Ideal) .f32 (0#32 : BitVec 32)) = (0 : EReal) := by
    show ((((0#32 : BitVec 32).toInt : ℤ) : ℝ) : EReal) = 0
    simp
  rw [h0, sub_zero]

theorem cmp_ogt_50000_zero : FloatOps.cmpf (F := Ideal) (φ := .f32) .ogt (Ideal.ofBits .f32 0x47435000#32) (Ideal.ofBits .f32 0x00000000#32) = 1#1 := by
  rw [Ideal.cmpf_def, Ideal.ofBits_zero_f32, ofBits_50000]
  show BitVec.ofBool (decide ((0 : EReal) < ((50000 : ℝ) : EReal))) = 1#1
  rw [decide_eq_true (by exact_mod_cast (by norm_num : (0 : ℝ) < 50000))]
  rfl

theorem max_fold_max {ι : Type} (t : Finset ι) (a : EReal) (f : ι → EReal) : max a (t.fold max a f) = t.fold max a f :=
  max_eq_right ((Finset.le_fold_max a).mpr (Or.inl le_rfl))

end Scalar

end Cert.RefMathOps

end
-- ==== Proof.RefMath.lean ====
import proofs.«173378_j55121610277361_1_alg».proof.Proof.RefStage
import proofs.«173378_j55121610277361_1_alg».proof.Proof.Math
import proofs.«173378_j55121610277361_1_alg».proof.Proof.RefMath_Ops
import Idealize.ShloMosaic.Lib.IdealHost

noncomputable section

namespace Cert.RefStage

open Cert.ReferenceIdeal Idealize.ShloMosaic Cert.Spec Idealize.ShloMosaic.ValueIdx Cert.RefMathOps
open scoped BigOperators

variable [hR : Cert.ReferenceIdeal.Facts]
open Cert.ReferenceIdeal.Facts₀ Cert.ReferenceIdeal.Facts

theorem dot128_eq (x : A (F := Ideal) S50000x128) (W : A (F := Ideal) S128x64) : dot128 (F := Ideal) x W = Cert.Math.mm (K := 128) x W := by
  funext i
  exact dot128_apply x W i
theorem dot64_eq (h : A (F := Ideal) S50000x64) (W : A (F := Ideal) S64x64) : dot64 (F := Ideal) h W = Cert.Math.mm (K := 64) h W := by
  funext i
  exact dot64_apply h W i

theorem rowB_apply (v : A (F := Ideal) S64) (p : Fin 50000) (q : Fin 64) : rowB (F := Ideal) v (ix2 p q) = v (ix1 q) := by
  unfold rowB
  rw [oneRow_apply, row1_apply]

theorem colSums_apply (z : A (F := Ideal) S50000x64) (q : Fin 64) : colSums (F := Ideal) z (ix1 q) = ∑ r : Fin 50000, z (ix2 r q) := by
  unfold colSums
  rw [colSum_apply, constant_apply, Ideal.ofBits_zero_f32, zero_add]

theorem mean_apply (z : A (F := Ideal) S50000x64) (q : Fin 64) : mean (F := Ideal) z (ix1 q) = Cert.Math.meanR z (ix1 q) := by
  unfold mean
  rw [ValueIdx.hostDivf_apply, colSums_apply, broadcastInDim_scalar_apply, constant_apply]
  rfl

theorem centred_apply (z : A (F := Ideal) S50000x64) (p : Fin 50000) (q : Fin 64) :
    centred (F := Ideal) z (ix2 p q) = z (ix2 p q) - Cert.Math.meanR z (ix1 q) := by
  unfold centred
  rw [subf_apply, oneRow_apply, ValueIdx.hostDivf_apply, row1_apply, colSums_apply, broadcastInDim_scalar_apply, constant_apply]
  rfl

theorem divisor_apply (j : S_.Idx) : divisor (F := Ideal) j = Cert.Math.cN := by
  unfold divisor
  rw [subf_apply, constant_apply, sitofp_apply]
  exact sub_sitofp_zero _

theorem guard_apply (j : S_.Idx) : cmpf (F := Ideal) .ogt (divisor (F := Ideal)) (constant (F := Ideal) S_ .f32 0x00000000#32) j = 1#1 := by
  rw [cmpf_apply, divisor_apply, constant_apply]
  exact cmp_ogt_50000_zero

theorem var_apply (z : A (F := Ideal) S50000x64) (q : Fin 64) : var (F := Ideal) z (ix1 q) = Cert.Math.varR z (ix1 q) := by
  unfold var
  rw [select_apply, broadcastInDim_scalar_apply, guard_apply, select_one, ValueIdx.hostDivf_apply, colSums_apply, broadcastInDim_scalar_apply, divisor_apply]
  refine congrArg (fun s => Ideal.div s Cert.Math.cN) (Finset.sum_congr rfl fun r _ => ?_)
  rw [mulf_apply, centred_apply]

theorem bn_eq (z : A (F := Ideal) S50000x64) (g be : A (F := Ideal) S64) : bn (F := Ideal) z g be = Cert.Math.bnR z g be := by
  funext i
  obtain ⟨p, q, rfl⟩ : ∃ (p : Fin 50000) (q : Fin 64), i = ix2 p q := ⟨i 0, i 1, eq_ix2 i⟩
  unfold bn
  rw [maximumf_apply, addf_apply, mulf_apply, mulf_apply, subf_apply, rowB_apply, rowB_apply, rowB_apply, rowB_apply,
    broadcastInDim_scalar_apply, constant_apply, Ideal.ofBits_zero_f32, mean_apply, hostRsqrt_apply, addf_apply, var_apply, broadcastInDim_scalar_apply,
    constant_apply]
  rfl

theorem blend_eq (p h0 : A (F := Ideal) S50000x64) : blend (F := Ideal) p h0 = Cert.Math.blend p h0 := by
  funext i
  unfold blend
  rw [addf_apply, mulf_apply, mulf_apply, broadcastInDim_scalar_apply, broadcastInDim_scalar_apply, constant_apply, constant_apply]
  rfl

theorem rowMaxB_apply (x : A (F := Ideal) S50000x64) (p : Fin 50000) (q : Fin 64) : rowMaxB (F := Ideal) x (ix2 p q) = Cert.Math.rowMax x p := by
  unfold rowMaxB
  rw [oneCol_apply, col1_apply, maximumf_apply, broadcastInDim_scalar_apply, constant_apply, rowMax_apply, constant_apply]
  exact max_fold_max _ _ _

theorem logSoftmax_eq (x : A (F := Ideal) S50000x64) : logSoftmax (F := Ideal) x = Cert.Math.logSoftmax x := by
  funext i
  obtain ⟨p, q, rfl⟩ : ∃ (p : Fin 50000) (q : Fin 64), i = ix2 p q := ⟨i 0, i 1, eq_ix2 i⟩
  unfold logSoftmax
  rw [subf_apply, subf_apply, rowMaxB_apply, oneCol_apply, hostLog_apply, col1_apply, rowSum_apply, constant_apply,
    Ideal.ofBits_zero_f32, zero_add]
  refine congrArg (fun s => (x (ix2 p q) - Cert.Math.rowMax x p) - Ideal.log s) (Finset.sum_congr rfl fun k _ => ?_)
  rw [hostExp_apply, subf_apply, rowMaxB_apply]

theorem fc_eq (h : A (F := Ideal) S50000x64) (W : A (F := Ideal) S64x64) (b : A (F := Ideal) S64) : fc (F := Ideal) h W b = Cert.Math.fcLS h W (Cert.Math.row b) := by
  unfold fc
  rw [logSoftmax_eq]
  refine congrArg Cert.Math.logSoftmax (funext fun i => ?_)
  obtain ⟨p, q, rfl⟩ : ∃ (p : Fin 50000) (q : Fin 64), i = ix2 p q := ⟨i 0, i 1, eq_ix2 i⟩
  rw [addf_apply, rowB_apply, dot64_eq]
  rfl

end Cert.RefStage

end
-- ==== Proof.RefValue.lean ====
import proofs.«173378_j55121610277361_1_alg».proof.Proof.Results
import proofs.«173378_j55121610277361_1_alg».proof.Proof.RefMath

noncomputable section

namespace Cert.Results

open Cert.ReferenceIdeal Idealize.ShloMosaic Cert.Math

variable [hR : Cert.ReferenceIdeal.Facts]

theorem appnpL_eq (src dst : IA S850000) (w : FA S850000) (h0 : FA S50000x64) (n : Nat) :
    Cert.RefStage.appnpL (F := Ideal) src dst w h0 n = appnp src dst w h0 n := by
  induction n with
  | zero => rfl
  | succ n ih => simp only [Cert.RefStage.appnpL, appnp, ih, Cert.RefStage.blend_eq]

theorem resultL_eq (x : FA S50000x128) (ei : IA S2x800000) (W1 : FA S128x64) (b1 : FA S64) (W2 : FA S64x64) (b2 : FA S64)
    (Wx : FA S2x64x64) (bx : FA S2x64) (g1 be1 g2 be2 g3 be3 : FA S64) (Wfc : FA S64x64) (bfc : FA S64) :
    Cert.RefStage.resultL (F := Ideal) x ei W1 b1 W2 b2 Wx bx g1 be1 g2 be2 g3 be3 Wfc bfc
      = refResult x ei W1 b1 W2 b2 Wx bx g1 be1 g2 be2 g3 be3 Wfc bfc := by
  unfold Cert.RefStage.resultL refResult
  simp only [Cert.RefStage.layerL, layerR, Cert.RefStage.dot128_eq, Cert.RefStage.dot64_eq, Cert.RefStage.bn_eq, Cert.RefStage.fc_eq, appnpL_eq]

end Cert.Results

end
-- ==== Proof.MathLaws.lean ====
import proofs.«173378_j55121610277361_1_alg».proof.Proof.Math

noncomputable section

namespace Cert.Math

open Idealize.ShloMosaic Idealize.ShloMosaic.ValueIdx
open scoped BigOperators

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem cN_eq : cN = ((50000 : ℝ) : EReal) := by
  simp [cN, Ideal.ofBits, Ideal.ieee, -EReal.coe_mul]; norm_num

theorem cEps_pos : ∃ e : ℝ, 0 < e ∧ cEps = (e : EReal) := by
  refine ⟨((2 ^ 23 + 2606508 : Nat) : ℝ) * (2 : ℝ) ^ ((110 : Int) - 127 - 23), by positivity, ?_⟩
  simp [cEps, Ideal.ofBits, Ideal.ieee, -EReal.coe_mul]

theorem allReal_mm {K : Nat} (x : Mat 50000 K) (W : Mat K 64) (hx : AllReal x) (hW : AllReal W) : AllReal (mm x W) := by
  choose fx hfx using hx
  choose fW hfW using hW
  intro i
  refine ⟨∑ k : Fin K, fx (ix2 (i 0) k) * fW (ix2 k (i 1)), ?_⟩
  unfold mm
  rw [coe_sum]
  refine Finset.sum_congr rfl (fun k _ => ?_)
  rw [hfx, hfW, EReal.coe_mul]

theorem div_cN (x : EReal) : Ideal.div x cN = x * ((1 / 50000 : ℝ) : EReal) := by
  rw [cN_eq]; exact Ideal.div_coe (by norm_num) x

theorem real_var (f : Fin 50000 → ℝ) :
    (∑ r, f r * f r) * (1 / 50000) - (∑ r, f r) * (1 / 50000) * ((∑ r, f r) * (1 / 50000))
      = (∑ r, (f r - (∑ r, f r) * (1 / 50000)) * (f r - (∑ r, f r) * (1 / 50000))) * (1 / 50000) := by
  simp only [sub_mul, mul_sub, Finset.sum_sub_distrib, ← Finset.sum_mul, ← Finset.mul_sum, Finset.sum_const, Finset.card_univ,
    Fintype.card_fin, nsmul_eq_mul, Nat.cast_ofNat]
  ring

section stats
variable (z : Mat 50000 64) (j : Fin 64) (f : Fin 50000 → ℝ) (hf : ∀ r, z (ix2 r j) = (f r : EReal))
include hf

theorem colsum_coe : (∑ r : Fin 50000, z (ix2 r j)) = ((∑ r, f r : ℝ) : EReal) := by
  rw [coe_sum]; exact Finset.sum_congr rfl (fun r _ => hf r)

theorem colsumsq_coe : (∑ r : Fin 50000, z (ix2 r j) * z (ix2 r j)) = ((∑ r, f r * f r : ℝ) : EReal) := by
  rw [coe_sum]; refine Finset.sum_congr rfl (fun r _ => ?_); rw [hf, EReal.coe_mul]

theorem meanR_coe : meanR z (ix1 j) = (((∑ r, f r) * (1 / 50000) : ℝ) : EReal) := by
  show Ideal.div (∑ r : Fin 50000, z (ix2 r j)) cN = _
  rw [colsum_coe z j f hf, div_cN, ← EReal.coe_mul]

theorem varR_coe : varR z (ix1 j)
    = (((∑ r, (f r - (∑ r, f r) * (1 / 50000)) * (f r - (∑ r, f r) * (1 / 50000))) * (1 / 50000) : ℝ) : EReal) := by
  show Ideal.div (∑ r : Fin 50000, (z (ix2 r j) - meanR z (ix1 j)) * (z (ix2 r j) - meanR z (ix1 j))) cN = _
  have hs : ∀ m : ℝ, (∑ r : Fin 50000, (z (ix2 r j) - (m : EReal)) * (z (ix2 r j) - (m : EReal)))
      = ((∑ r, (f r - m) * (f r - m) : ℝ) : EReal) := fun m => by
    rw [coe_sum]; refine Finset.sum_congr rfl (fun r _ => ?_); rw [hf, ← EReal.coe_sub, ← EReal.coe_mul]
  rw [meanR_coe z j f hf, hs, div_cN, ← EReal.coe_mul]

theorem varOf_coe : varOf (colSum z) (colSumSq z) (ix2 0 j)
    = (((∑ r, f r * f r) * (1 / 50000) - (∑ r, f r) * (1 / 50000) * ((∑ r, f r) * (1 / 50000)) : ℝ) : EReal) := by
  show Ideal.div (∑ r : Fin 50000, z (ix2 r j) * z (ix2 r j)) cN
      - Ideal.div (∑ r : Fin 50000, z (ix2 r j)) cN * Ideal.div (∑ r : Fin 50000, z (ix2 r j)) cN = _
  rw [colsum_coe z j f hf, colsumsq_coe z j f hf, div_cN, div_cN, ← EReal.coe_mul, ← EReal.coe_mul, ← EReal.coe_mul,
    ← EReal.coe_sub]

end stats

theorem varOf_eq_varR (z : Mat 50000 64) (hz : AllReal z) (j : Fin 64) :
    varOf (colSum z) (colSumSq z) (ix2 0 j) = varR z (ix1 j) := by
  choose f hf using hz
  rw [varOf_coe z j (fun r => f (ix2 r j)) (fun r => hf _), varR_coe z j (fun r => f (ix2 r j)) (fun r => hf _), real_var]

theorem bnK_eq_bnR (z : Mat 50000 64) (g b : Row 64) (hz : AllReal z) : bnK z g b = bnR z g b := by
  funext i
  have hv := varOf_eq_varR z hz (i 1)
  show max (g (ix1 (i 1)) * (z i - meanR z (ix1 (i 1)))
      * Ideal.rsqrt (varOf (colSum z) (colSumSq z) (ix2 0 (i 1)) + cEps) + b (ix1 (i 1))) 0 = _
  rw [hv]; rfl

/-- on real entries the column mean and the variance about it are reals, the variance nonnegative -/
theorem stats_real (z : Mat 50000 64) (hz : AllReal z) (j : Fin 64) :
    ∃ m v : ℝ, meanR z (ix1 j) = (m : EReal) ∧ varR z (ix1 j) = (v : EReal) ∧ 0 ≤ v := by
  choose f hf using hz
  exact ⟨_, _, meanR_coe z j (fun r => f (ix2 r j)) (fun r => hf _), varR_coe z j (fun r => f (ix2 r j)) (fun r => hf _),
    mul_nonneg (Finset.sum_nonneg fun r _ => mul_self_nonneg _) (by norm_num)⟩

theorem allReal_bnR (z : Mat 50000 64) (g b : Row 64) (hz : AllReal z) (hg : AllReal g) (hb : AllReal b) : AllReal (bnR z g b) := by
  intro i
  obtain ⟨e, he, hce⟩ := cEps_pos
  obtain ⟨a, ha⟩ := hz i
  obtain ⟨γ, hγ⟩ := hg (ix1 (i 1))
  obtain ⟨β, hβ⟩ := hb (ix1 (i 1))
  obtain ⟨m, v, hm, hv, hv0⟩ := stats_real z hz (i 1)
  have hpos : 0 < v + e := by linarith
  refine ⟨max (γ * (a - m) * (Real.sqrt (v + e))⁻¹ + β) 0, ?_⟩
  show max (g (ix1 (i 1)) * (z i - meanR z (ix1 (i 1))) * Ideal.rsqrt (varR z (ix1 (i 1)) + cEps) + b (ix1 (i 1))) 0 = _
  rw [hm, hv, hce, ha, hγ, hβ, ← EReal.coe_add, Ideal.rsqrt_coe, if_neg (not_lt.mpr hpos.le), if_neg hpos.ne',
    ← EReal.coe_sub, ← EReal.coe_mul, ← EReal.coe_mul, ← EReal.coe_add, ← EReal.coe_zero,
    ← EReal.coe_strictMono.monotone.map_max]

end Cert.Math

end
-- ==== Proof.SpecLaws.lean ====
import proofs.«173378_j55121610277361_1_alg».proof.Proof.Spec
import proofs.«173378_j55121610277361_1_alg».proof.Proof.Math
import Idealize.ShloMosaic.Lib.IdealHost

noncomputable section

namespace Cert.Spec

open Cert.ReferenceIdeal Idealize.ShloMosaic Cert.Math
open scoped BigOperators

variable [hR : Cert.ReferenceIdeal.Facts]

def IsReal (x : EReal) : Prop := ∃ r : ℝ, x = (r : EReal)

theorem isReal_add {x y : EReal} (hx : IsReal x) (hy : IsReal y) : IsReal (x + y) := by
  obtain ⟨r, rfl⟩ := hx; obtain ⟨q, rfl⟩ := hy; exact ⟨r + q, (EReal.coe_add r q).symm⟩

theorem isReal_mul {x y : EReal} (hx : IsReal x) (hy : IsReal y) : IsReal (x * y) := by
  obtain ⟨r, rfl⟩ := hx; obtain ⟨q, rfl⟩ := hy; exact ⟨r * q, (EReal.coe_mul r q).symm⟩

theorem isReal_zero : IsReal 0 := ⟨0, EReal.coe_zero.symm⟩

theorem isReal_sum {ι : Type} (S : Finset ι) (f : ι → EReal) (hf : ∀ j ∈ S, IsReal (f j)) : IsReal (∑ j ∈ S, f j) := by
  classical
  induction S using Finset.induction_on with
  | empty => rw [Finset.sum_empty]; exact isReal_zero
  | insert a S ha ih =>
    rw [Finset.sum_insert ha]
    exact isReal_add (hf a (Finset.mem_insert_self a S)) (ih fun j hj => hf j (Finset.mem_insert_of_mem hj))

theorem isReal_guarded_rsqrt (x z : EReal) (hx : IsReal x) (hz : z = 0) :
    IsReal (Scalar.select (Ideal.cmp .ogt x z) (Ideal.rsqrt x) z) := by
  obtain ⟨r, rfl⟩ := hx
  subst hz
  by_cases h : (0 : EReal) < (r : EReal)
  · have hc : Ideal.cmp .ogt (r : EReal) 0 = 1#1 := by simp [Ideal.cmp, h]
    rw [hc, ValueIdx.select_one]
    have hr : 0 < r := by exact_mod_cast h
    rw [Ideal.rsqrt_coe, if_neg (not_lt.mpr hr.le), if_neg hr.ne']
    exact ⟨_, rfl⟩
  · have hc : Ideal.cmp .ogt (r : EReal) 0 = 0#1 := by simp [Ideal.cmp, h]
    rw [hc, ValueIdx.select_zero]
    exact isReal_zero

section Arith
variable {s : Shape}

theorem allReal_mulf (a b : FVec Ideal s .f32) (ha : AllReal a) (hb : AllReal b) : AllReal (mulf a b) :=
  fun i => isReal_mul (ha i) (hb i)

theorem allReal_addf (a b : FVec Ideal s .f32) (ha : AllReal a) (hb : AllReal b) : AllReal (addf a b) :=
  fun i => isReal_add (ha i) (hb i)

theorem allReal_zero : AllReal (constant (F := Ideal) s .f32 0x00000000#32) :=
  fun _ => ⟨0, Ideal.ofBits_zero_f32.trans EReal.coe_zero.symm⟩

theorem allReal_one : AllReal (constant (F := Ideal) s .f32 0x3F800000#32) :=
  fun _ => ⟨1, Ideal.ofBits_one_f32.trans EReal.coe_one.symm⟩

theorem allReal_scatterAdd {si u : Shape} {w : Nat} (d : ScatterDims s si u) (x : FVec Ideal s .f32) (idx : IVec si w)
    (upd : FVec Ideal u .f32) (hx : AllReal x) (hu : AllReal upd) : AllReal (Host.scatterAdd d x idx upd) :=
  fun i => isReal_add (hx i) (isReal_sum _ _ fun j _ => hu j)

theorem zeros_apply (h : S_.BroadcastsInDim s (![] : Fin 0 → Fin s.rank)) (i : s.Idx) :
    broadcastInDim s ![] h (constant (F := Ideal) S_ .f32 0x00000000#32) i = 0 := by
  rw [ValueIdx.broadcastInDim_scalar_apply, ValueIdx.constant_apply, Ideal.ofBits_zero_f32]

theorem allReal_guarded_rsqrt (x z z' : FVec Ideal s .f32) (hx : AllReal x) (hz : ∀ i, z i = 0)
    (hz' : ∀ i, z' i = 0) : AllReal (select (cmpf .ogt x z) (Host.rsqrt x) z') := by
  intro i
  rw [ValueIdx.select_apply, ValueIdx.cmpf_apply, hz i, hz' i]
  exact isReal_guarded_rsqrt (x i) 0 (hx i) rfl

end Arith

theorem allReal_deg (dst : I (F := Ideal) S850000) : AllReal (deg (F := Ideal) dst) :=
  allReal_scatterAdd _ _ _ _ (fun _ => allReal_zero _) (fun _ => allReal_one _)

theorem allReal_dinv (dst : I (F := Ideal) S850000) : AllReal (dinv (F := Ideal) dst) :=
  allReal_guarded_rsqrt _ _ _ (allReal_deg dst) (zeros_apply _) (zeros_apply _)

theorem allReal_edgeWOf (src dst : I (F := Ideal) S850000) : AllReal (edgeWOf (F := Ideal) src dst) :=
  allReal_mulf _ _ (fun _ => allReal_dinv dst _) (fun _ => allReal_dinv dst _)

theorem allReal_prop (src dst : I (F := Ideal) S850000) (w : A (F := Ideal) S850000) (h : A (F := Ideal) S50000x64)
    (hw : AllReal w) (hh : AllReal h) : AllReal (prop src dst w h) :=
  allReal_scatterAdd _ _ _ _ (fun _ => allReal_zero _) (allReal_mulf _ _ (fun _ => hh _) (fun _ => hw _))

theorem allReal_addBias (p : A (F := Ideal) S50000x64) (b : A (F := Ideal) S64) (hp : AllReal p) (hb : AllReal b) :
    AllReal (addBias p b) :=
  allReal_addf _ _ hp (fun _ => hb _)

theorem allReal_wx0 (Wx : A (F := Ideal) S2x64x64) (h : AllReal Wx) : AllReal (wx0 Wx) :=
  fun _ => h _
theorem allReal_wx1 (Wx : A (F := Ideal) S2x64x64) (h : AllReal Wx) : AllReal (wx1 Wx) :=
  fun _ => h _
theorem allReal_bx0 (bx : A (F := Ideal) S2x64) (h : AllReal bx) : AllReal (bx0 bx) :=
  fun _ => h _
theorem allReal_bx1 (bx : A (F := Ideal) S2x64) (h : AllReal bx) : AllReal (bx1 bx) :=
  fun _ => h _

end Cert.Spec

end
-- ==== Proof.Bridge.lean ====
import proofs.«173378_j55121610277361_1_alg».proof.Proof.Results
import proofs.«173378_j55121610277361_1_alg».proof.Proof.MathLaws
import proofs.«173378_j55121610277361_1_alg».proof.Proof.SpecLaws

noncomputable section

namespace Cert.Results

open Cert.ReferenceIdeal Idealize.ShloMosaic Cert.Math

variable [hR : Cert.ReferenceIdeal.Facts]

/-- on real inputs the array a layer normalises is real, so the layer is the same with either variance, and real -/
theorem layer_both {K : Nat} (src dst : IA S850000) (w : FA S850000) (h : Mat 50000 K) (W : Mat K 64) (b g be : Row 64)
    (hw : AllReal w) (hh : AllReal h) (hW : AllReal W) (hb : AllReal b) (hg : AllReal g) (hbe : AllReal be) :
    layerK src dst w h W b g be = layerR src dst w h W b g be ∧ AllReal (layerR src dst w h W b g be) :=
  have hp := Spec.allReal_addBias _ _ (Spec.allReal_prop src dst w _ hw (Math.allReal_mm h W hh hW)) hb
  ⟨Math.bnK_eq_bnR _ g be hp, Math.allReal_bnR _ g be hp hg hbe⟩

theorem kerResult_eq_refResult (x : FA S50000x128) (ei : IA S2x800000) (W1 : FA S128x64) (b1 : FA S64) (W2 : FA S64x64) (b2 : FA S64)
    (Wx : FA S2x64x64) (bx : FA S2x64) (g1 be1 g2 be2 g3 be3 : FA S64) (Wfc : FA S64x64) (bfc : FA S64)
    (hx : AllReal x) (hW1 : AllReal W1) (hb1 : AllReal b1) (hW2 : AllReal W2) (hb2 : AllReal b2) (hWx : AllReal Wx) (hbx : AllReal bx)
    (hg1 : AllReal g1) (hbe1 : AllReal be1) (hg2 : AllReal g2) (hbe2 : AllReal be2) (hg3 : AllReal g3) (hbe3 : AllReal be3) :
    kerResult x ei W1 b1 W2 b2 Wx bx g1 be1 g2 be2 g3 be3 Wfc bfc = refResult x ei W1 b1 W2 b2 Wx bx g1 be1 g2 be2 g3 be3 Wfc bfc := by
  have hw := Spec.allReal_edgeWOf (Spec.srcOf ei) (Spec.dstOf ei)
  obtain ⟨e1, r1⟩ := layer_both (Spec.srcOf ei) (Spec.dstOf ei) _ x W1 b1 g1 be1 hw hx hW1 hb1 hg1 hbe1
  obtain ⟨e2, r2⟩ := layer_both (Spec.srcOf ei) (Spec.dstOf ei) _ _ W2 b2 g2 be2 hw r1 hW2 hb2 hg2 hbe2
  obtain ⟨e3, r3⟩ := layer_both (Spec.srcOf ei) (Spec.dstOf ei) _ _ _ _ g3 be3 hw r2 (Spec.allReal_wx0 Wx hWx) (Spec.allReal_bx0 bx hbx) hg3 hbe3
  obtain ⟨e4, -⟩ := layer_both (Spec.srcOf ei) (Spec.dstOf ei) _ _ _ _ g3 be3 hw r3 (Spec.allReal_wx1 Wx hWx) (Spec.allReal_bx1 bx hbx) hg3 hbe3
  unfold kerResult refResult
  simp only []
  rw [e1, e2, e3, e4]

end Cert.Results

end
-- ==== Proof.PreReal.lean ====
import proofs.«173378_j55121610277361_1_alg».proof.Pre_finite_inputs
import proofs.«173378_j55121610277361_1_alg».proof.Proof.Math
import Idealize.ShloMosaic.Lib.ReduceAll

noncomputable section

namespace Cert.PreReal

open Cert.Pre_finite_inputs Idealize.ShloMosaic Cert.Math

variable [hP : Cert.Pre_finite_inputs.Facts]

instance : Subsingleton S_.Idx := ⟨fun a b => funext fun d => d.elim0⟩

theorem ofBits_inf : Ideal.ofBits .f32 0x7F800000#32 = ⊤ := by simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

theorem andi_iff {s : Shape} (a b : IVec s 1) (i : s.Idx) : andi a b i = 1#1 ↔ a i = 1#1 ∧ b i = 1#1 := IntOp.andi_eq_one

theorem allReal_of_all {s : Shape} {axes : List (Fin s.rank)} {x : FVec Ideal s .f32}
    {hb : S_.BroadcastsInDim s (![] : Fin 0 → Fin s.rank)} {hr : s.ReducesTo axes S_} {hu : 0 < S_.numel} {j : S_.Idx}
    (e : Host.reduce IntOp.andi (cmpf .olt (Host.absf x) (broadcastInDim s ![] hb (constant S_ .f32 0x7F800000#32)))
      (constantI S_ 1 1#1) hr hu j = 1#1) : AllReal x :=
  fun i => real_of_abs_lt_top (x i) (Host.reduce_andi_all _ _ hr hu j e i)

theorem real_of_pre (a0 : FVec Ideal S50000x128 .f32) (a1 : IVec S2x800000 32) (a2 : FVec Ideal S128x64 .f32) (a3 : FVec Ideal S64 .f32) (a4 : FVec Ideal S64x64 .f32) (a5 : FVec Ideal S64 .f32) (a6 : FVec Ideal S2x64x64 .f32) (a7 : FVec Ideal S2x64 .f32) (a8 : FVec Ideal S64 .f32) (a9 : FVec Ideal S64 .f32) (a10 : FVec Ideal S64 .f32) (a11 : FVec Ideal S64 .f32) (a12 : FVec Ideal S64 .f32) (a13 : FVec Ideal S64 .f32) (a14 : FVec Ideal S64x64 .f32) (a15 : FVec Ideal S64 .f32)
    (h : Cert.Pre_finite_inputs.fn (F := Ideal) a0 a1 a2 a3 a4 a5 a6 a7 a8 a9 a10 a11 a12 a13 a14 a15 = fun _ => 1#1) :
    AllReal a0 ∧ AllReal a2 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 := by
  have h0 := congrFun h ValueIdx.ix0
  dsimp only [fn, fn_part1, fn_part2, fn_part3, fn_part4] at h0
  simp only [andi_iff] at h0
  obtain ⟨⟨⟨⟨⟨⟨⟨⟨⟨⟨⟨⟨⟨⟨e0, e2⟩, e3⟩, e4⟩, e5⟩, e6⟩, e7⟩, e8⟩, e9⟩, e10⟩, e11⟩, e12⟩, e13⟩, e14⟩, e15⟩ := h0
  exact ⟨allReal_of_all e0, allReal_of_all e2, allReal_of_all e3, allReal_of_all e4, allReal_of_all e5, allReal_of_all e6,
    allReal_of_all e7, allReal_of_all e8, allReal_of_all e9, allReal_of_all e10, allReal_of_all e11, allReal_of_all e12,
    allReal_of_all e13, allReal_of_all e14, allReal_of_all e15⟩

end Cert.PreReal

end
-- ==== Proof.lean ====
/- Both programs compute four graph layers, ten propagate-and-blend steps, a linear layer and a row-wise
   log-softmax. They differ only in the variance inside batch normalisation, E[z²] − E[z]² against the mean of
   squared deviations; the two agree when every entry is real, which is where the finite inputs are used. -/
import proofs.«173378_j55121610277361_1_alg».proof.Defs
import proofs.«173378_j55121610277361_1_alg».proof.Proof.Gen.Kernel
import proofs.«173378_j55121610277361_1_alg».proof.Proof.Gen.Kernel.Frame
import proofs.«173378_j55121610277361_1_alg».proof.Proof.Gen.KernelIdeal
import proofs.«173378_j55121610277361_1_alg».proof.Proof.Gen.KernelIdeal.Frame
import proofs.«173378_j55121610277361_1_alg».proof.Proof.Gen.ReferenceIdeal
import proofs.«173378_j55121610277361_1_alg».proof.Proof.Gen.Pre_finite_inputs
import proofs.«173378_j55121610277361_1_alg».proof.Proof.KRun
import proofs.«173378_j55121610277361_1_alg».proof.Proof.KValue
import proofs.«173378_j55121610277361_1_alg».proof.Proof.RefRun
import proofs.«173378_j55121610277361_1_alg».proof.Proof.RefRead
import proofs.«173378_j55121610277361_1_alg».proof.Proof.RefValue
import proofs.«173378_j55121610277361_1_alg».proof.Proof.Bridge
import proofs.«173378_j55121610277361_1_alg».proof.Proof.PreReal
import Idealize.ShloMosaic.Adequacy
import Idealize.ShloMosaic.Init

set_option maxRecDepth 16384

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => by
  refine (θ_run Cert.ReferenceIdeal.defs _ _).mono (fun r h c => ?_) (Cert.ReferenceIdeal.RefRun.run_main (F := Ideal) m ρ)
  have K := fun b hb => (h c b).trans (Cert.ReferenceIdeal.RefRun.arg_eq _ b hb)
  exact ⟨K Cert.ReferenceIdeal.main_arg0 (by decide),
    K Cert.ReferenceIdeal.main_arg1 (by decide),
    K Cert.ReferenceIdeal.main_arg2 (by decide),
    K Cert.ReferenceIdeal.main_arg3 (by decide),
    K Cert.ReferenceIdeal.main_arg4 (by decide),
    K Cert.ReferenceIdeal.main_arg5 (by decide),
    K Cert.ReferenceIdeal.main_arg6 (by decide),
    K Cert.ReferenceIdeal.main_arg7 (by decide),
    K Cert.ReferenceIdeal.main_arg8 (by decide),
    K Cert.ReferenceIdeal.main_arg9 (by decide),
    K Cert.ReferenceIdeal.main_arg10 (by decide),
    K Cert.ReferenceIdeal.main_arg11 (by decide),
    K Cert.ReferenceIdeal.main_arg12 (by decide),
    K Cert.ReferenceIdeal.main_arg13 (by decide),
    K Cert.ReferenceIdeal.main_arg14 (by decide),
    K Cert.ReferenceIdeal.main_arg15 (by decide)⟩

theorem algebraic : Cert.algebraic_KernelIdeal_ReferenceIdeal := by
  intro m ρ m' ρ' hpre hagree
  refine ⟨_, (θ_run Cert.KernelIdeal.defs _ _).mono (fun r h c => ⟨(h c).1.trans (Cert.KernelIdeal.KFold.kernel_value m ρ c), (h c).2⟩)
      (Cert.KernelIdeal.KRun.run_value (F := Ideal) m ρ), ?_⟩
  refine (θ_run Cert.ReferenceIdeal.defs _ _).mono (fun r h c => ?_) (Cert.ReferenceIdeal.RefRun.run_main (F := Ideal) m' ρ')
  have K := fun b hb => (h c b).trans (Cert.ReferenceIdeal.RefRun.arg_eq _ b hb)
  refine ⟨?_, K Cert.ReferenceIdeal.main_arg0 (by decide),
    K Cert.ReferenceIdeal.main_arg1 (by decide),
    K Cert.ReferenceIdeal.main_arg2 (by decide),
    K Cert.ReferenceIdeal.main_arg3 (by decide),
    K Cert.ReferenceIdeal.main_arg4 (by decide),
    K Cert.ReferenceIdeal.main_arg5 (by decide),
    K Cert.ReferenceIdeal.main_arg6 (by decide),
    K Cert.ReferenceIdeal.main_arg7 (by decide),
    K Cert.ReferenceIdeal.main_arg8 (by decide),
    K Cert.ReferenceIdeal.main_arg9 (by decide),
    K Cert.ReferenceIdeal.main_arg10 (by decide),
    K Cert.ReferenceIdeal.main_arg11 (by decide),
    K Cert.ReferenceIdeal.main_arg12 (by decide),
    K Cert.ReferenceIdeal.main_arg13 (by decide),
    K Cert.ReferenceIdeal.main_arg14 (by decide),
    K Cert.ReferenceIdeal.main_arg15 (by decide)⟩
  obtain ⟨e0, e1, e2, e3, e4, e5, e6, e7, e8, e9, e10, e11, e12, e13, e14, e15⟩ := hagree c
  obtain ⟨r0, r2, r3, r4, r5, r6, r7, r8, r9, r10, r11, r12, r13, r14, r15⟩ := Cert.PreReal.real_of_pre _ _ _ _ _ _ _ _ _ _ _ _ _ _ _ _ (hpre c)
  refine (h c Cert.ReferenceIdeal.main_v370).trans ((Cert.ReferenceIdeal.RefRun.result_eq _).trans ((Cert.Results.resultL_eq _ _ _ _ _ _ _ _ _ _ _ _ _ _ _ _).trans ?_))
  show Cert.Results.refResult (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [e0, e1, e2, e3, e4, e5, e6, e7, e8, e9, e10, e11, e12, e13, e14, e15]
  exact (Cert.Results.kerResult_eq_refResult _ _ _ _ _ _ _ _ _ _ _ _ _ _ _ _ r0 r2 r3 r4 r5 r6 r7 r8 r9 r10 r11 r12 r13).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
